-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x16 : Shape := ⟨2, ![800000, 16]⟩
abbrev S128x128 : Shape := ⟨2, ![128, 128]⟩
abbrev S128 : Shape := ⟨1, ![128]⟩
abbrev S3x16x128 : Shape := ⟨3, ![3, 16, 128]⟩
abbrev S3x128 : Shape := ⟨2, ![3, 128]⟩
abbrev S3x128x256 : Shape := ⟨3, ![3, 128, 256]⟩
abbrev S3x256 : Shape := ⟨2, ![3, 256]⟩
abbrev S3x256x128 : Shape := ⟨3, ![3, 256, 128]⟩
abbrev S3 : Shape := ⟨1, ![3]⟩
abbrev S512x128 : Shape := ⟨2, ![512, 128]⟩
abbrev S_ : Shape := ⟨0, ![]⟩
abbrev S1x800000 : Shape := ⟨2, ![1, 800000]⟩
abbrev S800000 : Shape := ⟨1, ![800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x16 : S_.BroadcastsInDim S800000x16 (![] : Fin 0 → Fin S800000x16.rank)
  reducesTo_S800000x16_S_d0_1 : S800000x16.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S3x16x128 : S_.BroadcastsInDim S3x16x128 (![] : Fin 0 → Fin S3x16x128.rank)
  reducesTo_S3x16x128_S_d0_1_2 : S3x16x128.ReducesTo [0, 1, 2] S_
  bcast_S_S3x128 : S_.BroadcastsInDim S3x128 (![] : Fin 0 → Fin S3x128.rank)
  reducesTo_S3x128_S_d0_1 : S3x128.ReducesTo [0, 1] S_
  bcast_S_S3x128x256 : S_.BroadcastsInDim S3x128x256 (![] : Fin 0 → Fin S3x128x256.rank)
  reducesTo_S3x128x256_S_d0_1_2 : S3x128x256.ReducesTo [0, 1, 2] S_
  bcast_S_S3x256 : S_.BroadcastsInDim S3x256 (![] : Fin 0 → Fin S3x256.rank)
  reducesTo_S3x256_S_d0_1 : S3x256.ReducesTo [0, 1] S_
  bcast_S_S3x256x128 : S_.BroadcastsInDim S3x256x128 (![] : Fin 0 → Fin S3x256x128.rank)
  reducesTo_S3x256x128_S_d0_1_2 : S3x256x128.ReducesTo [0, 1, 2] S_
  bcast_S_S3 : S_.BroadcastsInDim S3 (![] : Fin 0 → Fin S3.rank)
  reducesTo_S3_S_d0 : S3.ReducesTo [0] S_
  bcast_S_S512x128 : S_.BroadcastsInDim S512x128 (![] : Fin 0 → Fin S512x128.rank)
  reducesTo_S512x128_S_d0_1 : S512x128.ReducesTo [0, 1] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part4 {F : FTy → Type} [FloatOps F] (main_v63 : IVec S_ 1) (main_v67 : IVec S800000 1) (main_v68 : IVec S1x800000 32) : IVec S_ 1 :=
  let main_v69 : IVec S800000 32 := shapeCast S800000 main_v68 shapeCasts_S1x800000_S800000
  let main_c_25 : IVec S_ 32 := constantI S_ 32 50000#32
  let main_v70 : IVec S800000 32 := broadcastInDim S800000 ![] bcast_S_S800000 main_c_25
  let main_v71 : IVec S800000 1 := cmpi .slt main_v69 main_v70
  let main_v72 : IVec S800000 1 := andi main_v67 main_v71
  let main_c_26 : IVec S_ 1 := constantI S_ 1 1#1
  let main_v73 : IVec S_ 1 := (fun x v => Host.reduce IntOp.andi x v reducesTo_S800000_S_d0 h_S_) main_v72 main_c_26
  let main_v74 : IVec S_ 1 := andi main_v63 main_v73
  main_v74

def fn_part3 {F : FTy → Type} [FloatOps F] (main_arg1 : IVec S2x800000 32) (main_arg12 : FVec F S512x128 .f32) (main_arg13 : FVec F S128 .f32) (main_v48 : IVec S_ 1) (main_v49 : FVec F S3 .f32) (main_v50 : FVec F S3 .f32) : IVec S_ 1 :=
  let main_v51 : IVec S3 1 := cmpf .olt main_v49 main_v50
  let main_c_19 : IVec S_ 1 := constantI S_ 1 1#1
  let main_v52 : IVec S_ 1 := (fun x v => Host.reduce IntOp.andi x v reducesTo_S3_S_d0 h_S_) main_v51 main_c_19
  let main_v53 : IVec S_ 1 := andi main_v48 main_v52
  let main_v54 : FVec F S512x128 .f32 := Host.absf main_arg12
  let main_cst_20 : FVec F S_ .f32 := constant S_ .f32 0x7F800000#32
  let main_v55 : FVec F S512x128 .f32 := broadcastInDim S512x128 ![] bcast_S_S512x128 main_cst_20
  let main_v56 : IVec S512x128 1 := cmpf .olt main_v54 main_v55
  let main_c_21 : IVec S_ 1 := constantI S_ 1 1#1
  let main_v57 : IVec S_ 1 := (fun x v => Host.reduce IntOp.andi x v reducesTo_S512x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : IVec S1x800000 32 := (extractStridedSlice S1x800000 ![0, 0] · slices_S2x800000_S1x800000_0_0) main_arg1
  let main_v65 : IVec S800000 32 := shapeCast S800000 main_v64 shapeCasts_S1x800000_S800000
  let main_c_24 : IVec S_ 32 := constantI S_ 32 4294917296#32
  let main_v66 : IVec S800000 32 := broadcastInDim S800000 ![] bcast_S_S800000 main_c_24
  let main_v67 : IVec S800000 1 := cmpi .sge main_v65 main_v66
  let main_v68 : IVec S1x800000 32 := (extractStridedSlice S1x800000 ![0, 0] · slices_S2x800000_S1x800000_0_0) main_arg1
  fn_part4 (F := F) main_v63 main_v67 main_v68

def fn_part2 {F : FTy → Type} [FloatOps F] (main_arg1 : IVec S2x800000 32) (main_arg8 : FVec F S3x256 .f32) (main_arg9 : FVec F S3x256x128 .f32) (main_arg10 : FVec F S3x128 .f32) (main_arg11 : FVec F S3 .f32) (main_arg12 : FVec F S512x128 .f32) (main_arg13 : FVec F S128 .f32) (main_v33 : IVec S_ 1) : IVec S_ 1 :=
  let main_v34 : FVec F S3x256 .f32 := Host.absf main_arg8
  let main_cst_12 : FVec F S_ .f32 := constant S_ .f32 0x7F800000#32
  let main_v35 : FVec F S3x256 .f32 := broadcastInDim S3x256 ![] bcast_S_S3x256 main_cst_12
  let main_v36 : IVec S3x256 1 := cmpf .olt main_v34 main_v35
  let main_c_13 : IVec S_ 1 := constantI S_ 1 1#1
  let main_v37 : IVec S_ 1 := (fun x v => Host.reduce IntOp.andi x v reducesTo_S3x256_S_d0_1 h_S_) main_v36 main_c_13
  let main_v38 : IVec S_ 1 := andi main_v33 main_v37
  let main_v39 : FVec F S3x256x128 .f32 := Host.absf main_arg9
  let main_cst_14 : FVec F S_ .f32 := constant S_ .f32 0x7F800000#32
  let main_v40 : FVec F S3x256x128 .f32 := broadcastInDim S3x256x128 ![] bcast_S_S3x256x128 main_cst_14
  let main_v41 : IVec S3x256x128 1 := cmpf .olt main_v39 main_v40
  let main_c_15 : IVec S_ 1 := constantI S_ 1 1#1
  let main_v42 : IVec S_ 1 := (fun x v => Host.reduce IntOp.andi x v reducesTo_S3x256x128_S_d0_1_2 h_S_) main_v41 main_c_15
  let main_v43 : IVec S_ 1 := andi main_v38 main_v42
  let main_v44 : FVec F S3x128 .f32 := Host.absf main_arg10
  let main_cst_16 : FVec F S_ .f32 := constant S_ .f32 0x7F800000#32
  let main_v45 : FVec F S3x128 .f32 := broadcastInDim S3x128 ![] bcast_S_S3x128 main_cst_16
  let main_v46 : IVec S3x128 1 := cmpf .olt main_v44 main_v45
  let main_c_17 : IVec S_ 1 := constantI S_ 1 1#1
  let main_v47 : IVec S_ 1 := (fun x v => Host.reduce IntOp.andi x v reducesTo_S3x128_S_d0_1 h_S_) main_v46 main_c_17
  let main_v48 : IVec S_ 1 := andi main_v43 main_v47
  let main_v49 : FVec F S3 .f32 := Host.absf main_arg11
  let main_cst_18 : FVec F S_ .f32 := constant S_ .f32 0x7F800000#32
  let main_v50 : FVec F S3 .f32 := broadcastInDim S3 ![] bcast_S_S3 main_cst_18
  fn_part3 (F := F) main_arg1 main_arg12 main_arg13 main_v48 main_v49 main_v50

def fn_part1 {F : FTy → Type} [FloatOps F] (main_arg1 : IVec S2x800000 32) (main_arg5 : FVec F S3x16x128 .f32) (main_arg6 : FVec F S3x128 .f32) (main_arg7 : FVec F S3x128x256 .f32) (main_arg8 : FVec F S3x256 .f32) (main_arg9 : FVec F S3x256x128 .f32) (main_arg10 : FVec F S3x128 .f32) (main_arg11 : FVec F S3 .f32) (main_arg12 : FVec F S512x128 .f32) (main_arg13 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S3x16x128 .f32 := Host.absf main_arg5
  let main_cst_6 : FVec F S_ .f32 := constant S_ .f32 0x7F800000#32
  let main_v20 : FVec F S3x16x128 .f32 := broadcastInDim S3x16x128 ![] bcast_S_S3x16x128 main_cst_6
  let main_v21 : IVec S3x16x128 1 := cmpf .olt main_v19 main_v20
  let main_c_7 : IVec S_ 1 := constantI S_ 1 1#1
  let main_v22 : IVec S_ 1 := (fun x v => Host.reduce IntOp.andi x v reducesTo_S3x16x128_S_d0_1_2 h_S_) main_v21 main_c_7
  let main_v23 : IVec S_ 1 := andi main_v18 main_v22
  let main_v24 : FVec F S3x128 .f32 := Host.absf main_arg6
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128x256 .f32 := Host.absf main_arg7
  let main_cst_10 : FVec F S_ .f32 := constant S_ .f32 0x7F800000#32
  let main_v30 : FVec F S3x128x256 .f32 := broadcastInDim S3x128x256 ![] bcast_S_S3x128x256 main_cst_10
  let main_v31 : IVec S3x128x256 1 := cmpf .olt main_v29 main_v30
  let main_c_11 : IVec S_ 1 := constantI S_ 1 1#1
  let main_v32 : IVec S_ 1 := (fun x v => Host.reduce IntOp.andi x v reducesTo_S3x128x256_S_d0_1_2 h_S_) main_v31 main_c_11
  let main_v33 : IVec S_ 1 := andi main_v28 main_v32
  fn_part2 (F := F) main_arg1 main_arg8 main_arg9 main_arg10 main_arg11 main_arg12 main_arg13 main_v33

def fn {F : FTy → Type} [FloatOps F] (main_arg0 : FVec F S50000x128 .f32) (main_arg1 : IVec S2x800000 32) (main_arg2 : FVec F S800000x16 .f32) (main_arg3 : FVec F S128x128 .f32) (main_arg4 : FVec F S128 .f32) (main_arg5 : FVec F S3x16x128 .f32) (main_arg6 : FVec F S3x128 .f32) (main_arg7 : FVec F S3x128x256 .f32) (main_arg8 : FVec F S3x256 .f32) (main_arg9 : FVec F S3x256x128 .f32) (main_arg10 : FVec F S3x128 .f32) (main_arg11 : FVec F S3 .f32) (main_arg12 : FVec F S512x128 .f32) (main_arg13 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x16 .f32 := Host.absf main_arg2
  let main_cst_0 : FVec F S_ .f32 := constant S_ .f32 0x7F800000#32
  let main_v5 : FVec F S800000x16 .f32 := broadcastInDim S800000x16 ![] bcast_S_S800000x16 main_cst_0
  let main_v6 : IVec S800000x16 1 := cmpf .olt main_v4 main_v5
  let main_c_1 : IVec S_ 1 := constantI S_ 1 1#1
  let main_v7 : IVec S_ 1 := (fun x v => Host.reduce IntOp.andi x v reducesTo_S800000x16_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_arg9 main_arg10 main_arg11 main_arg12 main_arg13 main_v13 main_v16
-- ==== Kernel.lean ====
abbrev S50000x128 : Shape := ⟨2, ![50000, 128]⟩
abbrev S2x800000 : Shape := ⟨2, ![2, 800000]⟩
abbrev S800000x16 : Shape := ⟨2, ![800000, 16]⟩
abbrev S128x128 : Shape := ⟨2, ![128, 128]⟩
abbrev S128 : Shape := ⟨1, ![128]⟩
abbrev S3x16x128 : Shape := ⟨3, ![3, 16, 128]⟩
abbrev S3x128 : Shape := ⟨2, ![3, 128]⟩
abbrev S3x128x256 : Shape := ⟨3, ![3, 128, 256]⟩
abbrev S3x256 : Shape := ⟨2, ![3, 256]⟩
abbrev S3x256x128 : Shape := ⟨3, ![3, 256, 128]⟩
abbrev S3 : Shape := ⟨1, ![3]⟩
abbrev S512x128 : Shape := ⟨2, ![512, 128]⟩
abbrev S1x800000 : Shape := ⟨2, ![1, 800000]⟩
abbrev S800000 : Shape := ⟨1, ![800000]⟩
abbrev S1x128 : Shape := ⟨2, ![1, 128]⟩
abbrev S2000x128 : Shape := ⟨2, ![2000, 128]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S1x16x128 : Shape := ⟨3, ![1, 16, 128]⟩
abbrev S16x128 : Shape := ⟨2, ![16, 128]⟩
abbrev S8000x128 : Shape := ⟨2, ![8000, 128]⟩
abbrev S8000x16 : Shape := ⟨2, ![8000, 16]⟩
abbrev S1x128x256 : Shape := ⟨3, ![1, 128, 256]⟩
abbrev S128x256 : Shape := ⟨2, ![128, 256]⟩
abbrev S1x256 : Shape := ⟨2, ![1, 256]⟩
abbrev S256 : Shape := ⟨1, ![256]⟩
abbrev S1x256x128 : Shape := ⟨3, ![1, 256, 128]⟩
abbrev S256x128 : Shape := ⟨2, ![256, 128]⟩
abbrev S2000x256 : Shape := ⟨2, ![2000, 256]⟩
abbrev S50000x512 : Shape := ⟨2, ![50000, 512]⟩
abbrev S2000x512 : Shape := ⟨2, ![2000, 512]⟩

abbrev nBuf : Space → Nat
  | .hbm => 164
  | .vmem => 69
  | .smem => 0
  | _ => 0

abbrev hbmTy0_0 (i : Nat) : BufTy := match i % 128 with
  | 0 => ⟨S50000x128, .f32⟩
  | 1 => ⟨S2x800000, .i32⟩
  | 2 => ⟨S800000x16, .f32⟩
  | 3 => ⟨S128x128, .f32⟩
  | 4 => ⟨S128, .f32⟩
  | 5 => ⟨S3x16x128, .f32⟩
  | 6 => ⟨S3x128, .f32⟩
  | 7 => ⟨S3x128x256, .f32⟩
  | 8 => ⟨S3x256, .f32⟩
  | 9 => ⟨S3x256x128, .f32⟩
  | 10 => ⟨S3x128, .f32⟩
  | 11 => ⟨S3, .f32⟩
  | 12 => ⟨S512x128, .f32⟩
  | 13 => ⟨S128, .f32⟩
  | 14 => ⟨S1x800000, .i32⟩
  | 15 => ⟨S800000, .i32⟩
  | 16 => ⟨S1x800000, .i32⟩
  | 17 => ⟨S800000, .i32⟩
  | 18 => ⟨S1x128, .f32⟩
  | 19 => ⟨S50000x128, .f32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S1, .i32⟩
  | 29 => ⟨S_, .i32⟩
  | 30 => ⟨S800000x1, .i32⟩
  | 31 => ⟨S800000x1, .i1⟩
  | 32 => ⟨S1x1, .i32⟩
  | 33 => ⟨S800000x1, .i32⟩
  | 34 => ⟨S800000x1, .i1⟩
  | 35 => ⟨S800000x1, .i1⟩
  | 36 => ⟨S_, .i1⟩
  | 37 => ⟨S800000, .i1⟩
  | 38 => ⟨S800000x128, .f32⟩
  | 39 => ⟨S800000x128, .i1⟩
  | 40 => ⟨S_, .f32⟩
  | 41 => ⟨S800000x128, .f32⟩
  | 42 => ⟨S800000x128, .f32⟩
  | 43 => ⟨S1x16x128, .f32⟩
  | 44 => ⟨S16x128, .f32⟩
  | 45 => ⟨S1x128, .f32⟩
  | 46 => ⟨S128, .f32⟩
  | 47 => ⟨S1x128, .f32⟩
  | 48 => ⟨S800000x128, .f32⟩
  | 49 => ⟨S_, .f32⟩
  | 50 => ⟨S50000x128, .f32⟩
  | 51 => ⟨S800000x1, .i32⟩
  | 52 => ⟨S50000x128, .f32⟩
  | 53 => ⟨S1, .f32⟩
  | 54 => ⟨S_, .f32⟩
  | 55 => ⟨S1x128x256, .f32⟩
  | 56 => ⟨S128x256, .f32⟩
  | 57 => ⟨S1x256, .f32⟩
  | 58 => ⟨S256, .f32⟩
  | 59 => ⟨S1x256x128, .f32⟩
  | 60 => ⟨S256x128, .f32⟩
  | 61 => ⟨S1x128, .f32⟩
  | 62 => ⟨S128, .f32⟩
  | 63 => ⟨S1x256, .f32⟩
  | 64 => ⟨S1x128, .f32⟩
  | 65 => ⟨S1x1, .f32⟩
  | 66 => ⟨S50000x128, .f32⟩
  | 67 => ⟨S_, .i32⟩
  | 68 => ⟨S800000, .i32⟩
  | 69 => ⟨S800000, .i1⟩
  | 70 => ⟨S_, .i32⟩
  | 71 => ⟨S800000, .i32⟩
  | 72 => ⟨S800000, .i32⟩
  | 73 => ⟨S800000, .i32⟩
  | 74 => ⟨S800000x1, .i32⟩
  | 75 => ⟨S1, .i32⟩
  | 76 => ⟨S_, .i32⟩
  | 77 => ⟨S800000x1, .i32⟩
  | 78 => ⟨S800000x1, .i1⟩
  | 79 => ⟨S1x1, .i32⟩
  | 80 => ⟨S800000x1, .i32⟩
  | 81 => ⟨S800000x1, .i1⟩
  | 82 => ⟨S800000x1, .i1⟩
  | 83 => ⟨S_, .i1⟩
  | 84 => ⟨S800000, .i1⟩
  | 85 => ⟨S800000x128, .f32⟩
  | 86 => ⟨S800000x128, .i1⟩
  | 87 => ⟨S_, .f32⟩
  | 88 => ⟨S800000x128, .f32⟩
  | 89 => ⟨S800000x128, .f32⟩
  | 90 => ⟨S1x16x128, .f32⟩
  | 91 => ⟨S16x128, .f32⟩
  | 92 => ⟨S1x128, .f32⟩
  | 93 => ⟨S128, .f32⟩
  | 94 => ⟨S1x128, .f32⟩
  | 95 => ⟨S800000x128, .f32⟩
  | 96 => ⟨S_, .f32⟩
  | 97 => ⟨S50000x128, .f32⟩
  | 98 => ⟨S800000x1, .i32⟩
  | 99 => ⟨S50000x128, .f32⟩
  | 100 => ⟨S1, .f32⟩
  | 101 => ⟨S_, .f32⟩
  | 102 => ⟨S1x128x256, .f32⟩
  | 103 => ⟨S128x256, .f32⟩
  | 104 => ⟨S1x256, .f32⟩
  | 105 => ⟨S256, .f32⟩
  | 106 => ⟨S1x256x128, .f32⟩
  | 107 => ⟨S256x128, .f32⟩
  | 108 => ⟨S1x128, .f32⟩
  | 109 => ⟨S128, .f32⟩
  | 110 => ⟨S1x256, .f32⟩
  | 111 => ⟨S1x128, .f32⟩
  | 112 => ⟨S1x1, .f32⟩
  | 113 => ⟨S50000x128, .f32⟩
  | 114 => ⟨S_, .i32⟩
  | 115 => ⟨S800000, .i32⟩
  | 116 => ⟨S800000, .i1⟩
  | 117 => ⟨S_, .i32⟩
  | 118 => ⟨S800000, .i32⟩
  | 119 => ⟨S800000, .i32⟩
  | 120 => ⟨S800000, .i32⟩
  | 121 => ⟨S800000x1, .i32⟩
  | 122 => ⟨S1, .i32⟩
  | 123 => ⟨S_, .i32⟩
  | 124 => ⟨S800000x1, .i32⟩
  | 125 => ⟨S800000x1, .i1⟩
  | 126 => ⟨S1x1, .i32⟩
  | 127 => ⟨S800000x1, .i32⟩
  | _ => ⟨S50000x128, .f32⟩

abbrev hbmTy0_1 (i : Nat) : BufTy := match i % 128 with
  | 0 => ⟨S800000x1, .i1⟩
  | 1 => ⟨S800000x1, .i1⟩
  | 2 => ⟨S_, .i1⟩
  | 3 => ⟨S800000, .i1⟩
  | 4 => ⟨S800000x128, .f32⟩
  | 5 => ⟨S800000x128, .i1⟩
  | 6 => ⟨S_, .f32⟩
  | 7 => ⟨S800000x128, .f32⟩
  | 8 => ⟨S800000x128, .f32⟩
  | 9 => ⟨S1x16x128, .f32⟩
  | 10 => ⟨S16x128, .f32⟩
  | 11 => ⟨S1x128, .f32⟩
  | 12 => ⟨S128, .f32⟩
  | 13 => ⟨S1x128, .f32⟩
  | 14 => ⟨S800000x128, .f32⟩
  | 15 => ⟨S_, .f32⟩
  | 16 => ⟨S50000x128, .f32⟩
  | 17 => ⟨S800000x1, .i32⟩
  | 18 => ⟨S50000x128, .f32⟩
  | 19 => ⟨S1, .f32⟩
  | 20 => ⟨S_, .f32⟩
  | 21 => ⟨S1x128x256, .f32⟩
  | 22 => ⟨S128x256, .f32⟩
  | 23 => ⟨S1x256, .f32⟩
  | 24 => ⟨S256, .f32⟩
  | 25 => ⟨S1x256x128, .f32⟩
  | 26 => ⟨S256x128, .f32⟩
  | 27 => ⟨S1x128, .f32⟩
  | 28 => ⟨S128, .f32⟩
  | 29 => ⟨S1x256, .f32⟩
  | 30 => ⟨S1x128, .f32⟩
  | 31 => ⟨S1x1, .f32⟩
  | 32 => ⟨S50000x128, .f32⟩
  | 33 => ⟨S50000x512, .f32⟩
  | 34 => ⟨S1x128, .f32⟩
  | 35 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S8000x128, .f32⟩
  | .local _ .vmem, ⟨7, _⟩ => ⟨S8000x128, .f32⟩
  | .local _ .vmem, ⟨8, _⟩ => ⟨S8000x16, .f32⟩
  | .local _ .vmem, ⟨9, _⟩ => ⟨S8000x16, .f32⟩
  | .local _ .vmem, ⟨10, _⟩ => ⟨S16x128, .f32⟩
  | .local _ .vmem, ⟨11, _⟩ => ⟨S1x128, .f32⟩
  | .local _ .vmem, ⟨12, _⟩ => ⟨S8000x128, .f32⟩
  | .local _ .vmem, ⟨13, _⟩ => ⟨S8000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S1x1, .f32⟩
  | .local _ .vmem, ⟨19, _⟩ => ⟨S128x256, .f32⟩
  | .local _ .vmem, ⟨20, _⟩ => ⟨S1x256, .f32⟩
  | .local _ .vmem, ⟨21, _⟩ => ⟨S256x128, .f32⟩
  | .local _ .vmem, ⟨22, _⟩ => ⟨S1x128, .f32⟩
  | .local _ .vmem, ⟨23, _⟩ => ⟨S2000x128, .f32⟩
  | .local _ .vmem, ⟨24, _⟩ => ⟨S2000x128, .f32⟩
  | .local _ .vmem, ⟨25, _⟩ => ⟨S8000x128, .f32⟩
  | .local _ .vmem, ⟨26, _⟩ => ⟨S8000x128, .f32⟩
  | .local _ .vmem, ⟨27, _⟩ => ⟨S8000x16, .f32⟩
  | .local _ .vmem, ⟨28, _⟩ => ⟨S8000x16, .f32⟩
  | .local _ .vmem, ⟨29, _⟩ => ⟨S16x128, .f32⟩
  | .local _ .vmem, ⟨30, _⟩ => ⟨S1x128, .f32⟩
  | .local _ .vmem, ⟨31, _⟩ => ⟨S8000x128, .f32⟩
  | .local _ .vmem, ⟨32, _⟩ => ⟨S8000x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S1x1, .f32⟩
  | .local _ .vmem, ⟨38, _⟩ => ⟨S128x256, .f32⟩
  | .local _ .vmem, ⟨39, _⟩ => ⟨S1x256, .f32⟩
  | .local _ .vmem, ⟨40, _⟩ => ⟨S256x128, .f32⟩
  | .local _ .vmem, ⟨41, _⟩ => ⟨S1x128, .f32⟩
  | .local _ .vmem, ⟨42, _⟩ => ⟨S2000x128, .f32⟩
  | .local _ .vmem, ⟨43, _⟩ => ⟨S2000x128, .f32⟩
  | .local _ .vmem, ⟨44, _⟩ => ⟨S8000x128, .f32⟩
  | .local _ .vmem, ⟨45, _⟩ => ⟨S8000x128, .f32⟩
  | .local _ .vmem, ⟨46, _⟩ => ⟨S8000x16, .f32⟩
  | .local _ .vmem, ⟨47, _⟩ => ⟨S8000x16, .f32⟩
  | .local _ .vmem, ⟨48, _⟩ => ⟨S16x128, .f32⟩
  | .local _ .vmem, ⟨49, _⟩ => ⟨S1x128, .f32⟩
  | .local _ .vmem, ⟨50, _⟩ => ⟨S8000x128, .f32⟩
  | .local _ .vmem, ⟨51, _⟩ => ⟨S8000x128, .f32⟩
  | .local _ .vmem, ⟨52, _⟩ => ⟨S2000x128, .f32⟩
  | .local _ .vmem, ⟨53, _⟩ => ⟨S2000x128, .f32⟩
  | .local _ .vmem, ⟨54, _⟩ => ⟨S2000x128, .f32⟩
  | .local _ .vmem, ⟨55, _⟩ => ⟨S2000x128, .f32⟩
  | .local _ .vmem, ⟨56, _⟩ => ⟨S1x1, .f32⟩
  | .local _ .vmem, ⟨57, _⟩ => ⟨S128x256, .f32⟩
  | .local _ .vmem, ⟨58, _⟩ => ⟨S1x256, .f32⟩
  | .local _ .vmem, ⟨59, _⟩ => ⟨S256x128, .f32⟩
  | .local _ .vmem, ⟨60, _⟩ => ⟨S1x128, .f32⟩
  | .local _ .vmem, ⟨61, _⟩ => ⟨S2000x128, .f32⟩
  | .local _ .vmem, ⟨62, _⟩ => ⟨S2000x128, .f32⟩
  | .local _ .vmem, ⟨63, _⟩ => ⟨S2000x512, .f32⟩
  | .local _ .vmem, ⟨64, _⟩ => ⟨S2000x512, .f32⟩
  | .local _ .vmem, ⟨65, _⟩ => ⟨S512x128, .f32⟩
  | .local _ .vmem, ⟨66, _⟩ => ⟨S1x128, .f32⟩
  | .local _ .vmem, ⟨67, _⟩ => ⟨S2000x128, .f32⟩
  | .local _ .vmem, ⟨68, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | _, _ => false

abbrev semScoped : Fin 0 → Bool
  | ⟨_, h⟩ => absurd h (Nat.not_lt_zero _)

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  ofTc nBuf bufTy 0 69 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_cst : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_call1_c : Ref sig .tc := ⟨.hbm, 67, rfl⟩
abbrev main_call1_v0 : Ref sig .tc := ⟨.hbm, 68, rfl⟩
abbrev main_call1_v1 : Ref sig .tc := ⟨.hbm, 69, rfl⟩
abbrev main_call1_c_0 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_call1_v5 : Ref sig .tc := ⟨.hbm, 74, rfl⟩
abbrev main_call1_c_1 : Ref sig .tc := ⟨.hbm, 75, rfl⟩
abbrev main_call1_c_2 : Ref sig .tc := ⟨.hbm, 76, rfl⟩
abbrev main_call1_v6 : Ref sig .tc := ⟨.hbm, 77, rfl⟩
abbrev main_call1_v7 : Ref sig .tc := ⟨.hbm, 78, rfl⟩
abbrev main_call1_v8 : Ref sig .tc := ⟨.hbm, 79, rfl⟩
abbrev main_call1_v9 : Ref sig .tc := ⟨.hbm, 80, rfl⟩
abbrev main_call1_v10 : Ref sig .tc := ⟨.hbm, 81, rfl⟩
abbrev main_call1_v11 : Ref sig .tc := ⟨.hbm, 82, rfl⟩
abbrev main_call1_c_3 : Ref sig .tc := ⟨.hbm, 83, rfl⟩
abbrev main_call1_v12 : Ref sig .tc := ⟨.hbm, 84, rfl⟩
abbrev main_call1_v13 : Ref sig .tc := ⟨.hbm, 85, rfl⟩
abbrev main_call1_v14 : Ref sig .tc := ⟨.hbm, 86, rfl⟩
abbrev main_call1_cst : Ref sig .tc := ⟨.hbm, 87, rfl⟩
abbrev main_call1_v15 : Ref sig .tc := ⟨.hbm, 88, rfl⟩
abbrev main_v30 : Ref sig .tc := ⟨.hbm, 89, rfl⟩
abbrev main_v31 : Ref sig .tc := ⟨.hbm, 90, rfl⟩
abbrev main_v32 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_v36 : Ref sig .tc := ⟨.hbm, 95, rfl⟩
abbrev main_cst_0 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_v53 : Ref sig .tc := ⟨.hbm, 113, rfl⟩
abbrev main_call2_c : Ref sig .tc := ⟨.hbm, 114, rfl⟩
abbrev main_call2_v0 : Ref sig .tc := ⟨.hbm, 115, rfl⟩
abbrev main_call2_v1 : Ref sig .tc := ⟨.hbm, 116, rfl⟩
abbrev main_call2_c_0 : Ref sig .tc := ⟨.hbm, 117, rfl⟩
abbrev main_call2_v2 : Ref sig .tc := ⟨.hbm, 118, rfl⟩
abbrev main_call2_v3 : Ref sig .tc := ⟨.hbm, 119, rfl⟩
abbrev main_call2_v4 : Ref sig .tc := ⟨.hbm, 120, rfl⟩
abbrev main_call2_v5 : Ref sig .tc := ⟨.hbm, 121, rfl⟩
abbrev main_call2_c_1 : Ref sig .tc := ⟨.hbm, 122, rfl⟩
abbrev main_call2_c_2 : Ref sig .tc := ⟨.hbm, 123, rfl⟩
abbrev main_call2_v6 : Ref sig .tc := ⟨.hbm, 124, rfl⟩
abbrev main_call2_v7 : Ref sig .tc := ⟨.hbm, 125, rfl⟩
abbrev main_call2_v8 : Ref sig .tc := ⟨.hbm, 126, rfl⟩
abbrev main_call2_v9 : Ref sig .tc := ⟨.hbm, 127, rfl⟩
abbrev main_call2_v10 : Ref sig .tc := ⟨.hbm, 128, rfl⟩
abbrev main_call2_v11 : Ref sig .tc := ⟨.hbm, 129, rfl⟩
abbrev main_call2_c_3 : Ref sig .tc := ⟨.hbm, 130, rfl⟩
abbrev main_call2_v12 : Ref sig .tc := ⟨.hbm, 131, rfl⟩
abbrev main_call2_v13 : Ref sig .tc := ⟨.hbm, 132, rfl⟩
abbrev main_call2_v14 : Ref sig .tc := ⟨.hbm, 133, rfl⟩
abbrev main_call2_cst : Ref sig .tc := ⟨.hbm, 134, rfl⟩
abbrev main_call2_v15 : Ref sig .tc := ⟨.hbm, 135, rfl⟩
abbrev main_v54 : Ref sig .tc := ⟨.hbm, 136, rfl⟩
abbrev main_v55 : Ref sig .tc := ⟨.hbm, 137, rfl⟩
abbrev main_v56 : Ref sig .tc := ⟨.hbm, 138, rfl⟩
abbrev main_v57 : Ref sig .tc := ⟨.hbm, 139, rfl⟩
abbrev main_v58 : Ref sig .tc := ⟨.hbm, 140, rfl⟩
abbrev main_v59 : Ref sig .tc := ⟨.hbm, 141, rfl⟩
abbrev main_v60 : Ref sig .tc := ⟨.hbm, 142, rfl⟩
abbrev main_cst_1 : Ref sig .tc := ⟨.hbm, 143, rfl⟩
abbrev main_v61 : Ref sig .tc := ⟨.hbm, 144, rfl⟩
abbrev main_v62 : Ref sig .tc := ⟨.hbm, 145, rfl⟩
abbrev main_v63 : Ref sig .tc := ⟨.hbm, 146, rfl⟩
abbrev main_v64 : Ref sig .tc := ⟨.hbm, 147, rfl⟩
abbrev main_v65 : Ref sig .tc := ⟨.hbm, 148, rfl⟩
abbrev main_v66 : Ref sig .tc := ⟨.hbm, 149, rfl⟩
abbrev main_v67 : Ref sig .tc := ⟨.hbm, 150, rfl⟩
abbrev main_v68 : Ref sig .tc := ⟨.hbm, 151, rfl⟩
abbrev main_v69 : Ref sig .tc := ⟨.hbm, 152, rfl⟩
abbrev main_v70 : Ref sig .tc := ⟨.hbm, 153, rfl⟩
abbrev main_v71 : Ref sig .tc := ⟨.hbm, 154, rfl⟩
abbrev main_v72 : Ref sig .tc := ⟨.hbm, 155, rfl⟩
abbrev main_v73 : Ref sig .tc := ⟨.hbm, 156, rfl⟩
abbrev main_v74 : Ref sig .tc := ⟨.hbm, 157, rfl⟩
abbrev main_v75 : Ref sig .tc := ⟨.hbm, 158, rfl⟩
abbrev main_v76 : Ref sig .tc := ⟨.hbm, 159, rfl⟩
abbrev main_v77 : Ref sig .tc := ⟨.hbm, 160, rfl⟩
abbrev main_v78 : Ref sig .tc := ⟨.hbm, 161, rfl⟩
abbrev main_v79 : Ref sig .tc := ⟨.hbm, 162, rfl⟩
abbrev main_v80 : Ref sig .tc := ⟨.hbm, 163, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc2_stg7_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg4_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg1_1 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg4_0 : Ref sig .tc := ⟨.vmem, 39, rfl⟩
abbrev cc4_stg5_0 : Ref sig .tc := ⟨.vmem, 40, rfl⟩
abbrev cc4_stg6_0 : Ref sig .tc := ⟨.vmem, 41, rfl⟩
abbrev cc4_stg7_0 : Ref sig .tc := ⟨.vmem, 42, rfl⟩
abbrev cc4_stg7_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg1_1 : Ref sig .tc := ⟨.vmem, 47, rfl⟩
abbrev cc5_stg2_0 : Ref sig .tc := ⟨.vmem, 48, rfl⟩
abbrev cc5_stg3_0 : Ref sig .tc := ⟨.vmem, 49, rfl⟩
abbrev cc5_stg4_0 : Ref sig .tc := ⟨.vmem, 50, rfl⟩
abbrev cc5_stg4_1 : Ref sig .tc := ⟨.vmem, 51, rfl⟩
abbrev cc6_stg0_0 : Ref sig .tc := ⟨.vmem, 52, rfl⟩
abbrev cc6_stg0_1 : Ref sig .tc := ⟨.vmem, 53, rfl⟩
abbrev cc6_stg1_0 : Ref sig .tc := ⟨.vmem, 54, rfl⟩
abbrev cc6_stg1_1 : Ref sig .tc := ⟨.vmem, 55, rfl⟩
abbrev cc6_stg2_0 : Ref sig .tc := ⟨.vmem, 56, rfl⟩
abbrev cc6_stg3_0 : Ref sig .tc := ⟨.vmem, 57, rfl⟩
abbrev cc6_stg4_0 : Ref sig .tc := ⟨.vmem, 58, rfl⟩
abbrev cc6_stg5_0 : Ref sig .tc := ⟨.vmem, 59, rfl⟩
abbrev cc6_stg6_0 : Ref sig .tc := ⟨.vmem, 60, rfl⟩
abbrev cc6_stg7_0 : Ref sig .tc := ⟨.vmem, 61, rfl⟩
abbrev cc6_stg7_1 : Ref sig .tc := ⟨.vmem, 62, rfl⟩
abbrev cc7_stg0_0 : Ref sig .tc := ⟨.vmem, 63, rfl⟩
abbrev cc7_stg0_1 : Ref sig .tc := ⟨.vmem, 64, rfl⟩
abbrev cc7_stg1_0 : Ref sig .tc := ⟨.vmem, 65, rfl⟩
abbrev cc7_stg2_0 : Ref sig .tc := ⟨.vmem, 66, rfl⟩
abbrev cc7_stg3_0 : Ref sig .tc := ⟨.vmem, 67, rfl⟩
abbrev cc7_stg3_1 : Ref sig .tc := ⟨.vmem, 68, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem7_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem3_0 : DmaSem sig := 30
abbrev cc3_sem4_0 : DmaSem sig := 31
abbrev cc3_sem4_1 : DmaSem sig := 32
abbrev cc4_sem0_0 : DmaSem sig := 33
abbrev cc4_sem0_1 : DmaSem sig := 34
abbrev cc4_sem1_0 : DmaSem sig := 35
abbrev cc4_sem1_1 : DmaSem sig := 36
abbrev cc4_sem2_0 : DmaSem sig := 37
abbrev cc4_sem3_0 : DmaSem sig := 38
abbrev cc4_sem4_0 : DmaSem sig := 39
abbrev cc4_sem5_0 : DmaSem sig := 40
abbrev cc4_sem6_0 : DmaSem sig := 41
abbrev cc4_sem7_0 : DmaSem sig := 42
abbrev cc4_sem7_1 : DmaSem sig := 43
abbrev cc5_sem0_0 : DmaSem sig := 44
abbrev cc5_sem0_1 : DmaSem sig := 45
abbrev cc5_sem1_0 : DmaSem sig := 46
abbrev cc5_sem1_1 : DmaSem sig := 47
abbrev cc5_sem2_0 : DmaSem sig := 48
abbrev cc5_sem3_0 : DmaSem sig := 49
abbrev cc5_sem4_0 : DmaSem sig := 50
abbrev cc5_sem4_1 : DmaSem sig := 51
abbrev cc6_sem0_0 : DmaSem sig := 52
abbrev cc6_sem0_1 : DmaSem sig := 53
abbrev cc6_sem1_0 : DmaSem sig := 54
abbrev cc6_sem1_1 : DmaSem sig := 55
abbrev cc6_sem2_0 : DmaSem sig := 56
abbrev cc6_sem3_0 : DmaSem sig := 57
abbrev cc6_sem4_0 : DmaSem sig := 58
abbrev cc6_sem5_0 : DmaSem sig := 59
abbrev cc6_sem6_0 : DmaSem sig := 60
abbrev cc6_sem7_0 : DmaSem sig := 61
abbrev cc6_sem7_1 : DmaSem sig := 62
abbrev cc7_sem0_0 : DmaSem sig := 63
abbrev cc7_sem0_1 : DmaSem sig := 64
abbrev cc7_sem1_0 : DmaSem sig := 65
abbrev cc7_sem2_0 : DmaSem sig := 66
abbrev cc7_sem3_0 : DmaSem sig := 67
abbrev cc7_sem3_1 : DmaSem sig := 68

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S8000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S16x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S8000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S256x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S2000x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![100], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S8000x16 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S16x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S8000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x256 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S256x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S2000x128 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x512 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S512x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S2000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  slices_S3x16x128_S1x16x128_0_0_0 : S3x16x128.Slices ![0, 0, 0] S1x16x128
  shapeCasts_S1x16x128_S16x128 : S1x16x128.ShapeCasts S16x128
  slices_S3x128_S1x128_0_0 : S3x128.Slices ![0, 0] S1x128
  shapeCasts_S1x128_S128 : S1x128.ShapeCasts S128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S8000x16_S8000x16_0_0 : ∀ a, (![0, 0] : Fin 2 → Nat) a + S8000x16.size a ≤ S8000x16.size a
  h_S8000x16 : 0 < S8000x16.numel
  inb_S16x128_S16x128_0_0 : ∀ a, (![0, 0] : Fin 2 → Nat) a + S16x128.size a ≤ S16x128.size a
  h_S16x128 : 0 < S16x128.numel
  shapeCasts_S16x128_S16x128 : S16x128.ShapeCasts S16x128
  broadcasts_S1x128_S8000x128 : S1x128.Broadcasts S8000x128
  bcast_S_S50000x128 : S_.BroadcastsInDim S50000x128 (![] : Fin 0 → Fin S50000x128.rank)
  slices_S3_S1_0 : S3.Slices ![0] S1
  shapeCasts_S1_S_ : S1.ShapeCasts S_
  slices_S3x128x256_S1x128x256_0_0_0 : S3x128x256.Slices ![0, 0, 0] S1x128x256
  shapeCasts_S1x128x256_S128x256 : S1x128x256.ShapeCasts S128x256
  slices_S3x256_S1x256_0_0 : S3x256.Slices ![0, 0] S1x256
  shapeCasts_S1x256_S256 : S1x256.ShapeCasts S256
  slices_S3x256x128_S1x256x128_0_0_0 : S3x256x128.Slices ![0, 0, 0] S1x256x128
  shapeCasts_S1x256x128_S256x128 : S1x256x128.ShapeCasts S256x128
  shapeCasts_S256_S1x256 : S256.ShapeCasts S1x256
  shapeCasts_S_S1x1 : S_.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S2000x128_S2000x128 : S2000x128.ShapeCasts S2000x128
  broadcasts_S1x1_S2000x128 : S1x1.Broadcasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  slices_S3x16x128_S1x16x128_1_0_0 : S3x16x128.Slices ![1, 0, 0] S1x16x128
  slices_S3x128_S1x128_1_0 : S3x128.Slices ![1, 0] S1x128
  slices_S3_S1_1 : S3.Slices ![1] S1
  slices_S3x128x256_S1x128x256_1_0_0 : S3x128x256.Slices ![1, 0, 0] S1x128x256
  slices_S3x256_S1x256_1_0 : S3x256.Slices ![1, 0] S1x256
  slices_S3x256x128_S1x256x128_1_0_0 : S3x256x128.Slices ![1, 0, 0] S1x256x128
  slices_S3x16x128_S1x16x128_2_0_0 : S3x16x128.Slices ![2, 0, 0] S1x16x128
  slices_S3x128_S1x128_2_0 : S3x128.Slices ![2, 0] S1x128
  slices_S3_S1_2 : S3.Slices ![2] S1
  slices_S3x128x256_S1x128x256_2_0_0 : S3x128x256.Slices ![2, 0, 0] S1x128x256
  slices_S3x256_S1x256_2_0 : S3x256.Slices ![2, 0] S1x256
  slices_S3x256x128_S1x256x128_2_0_0 : S3x256x128.Slices ![2, 0, 0] S1x256x128
  concatenates_S50000x128_S50000x128_S50000x128_S50000x128_S50000x512_d1 : Shape.Concatenates [S50000x128, S50000x128, S50000x128, S50000x128] S50000x512 1
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S512x128_S512x128_0_0 : ∀ a, (![0, 0] : Fin 2 → Nat) a + S512x128.size a ≤ S512x128.size a
  h_S512x128 : 0 < S512x128.numel
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  dot_S8000x16_S16x128_S8000x128_1_0_0_1_n_n_wf : DotDims.WF S8000x16 S16x128 S8000x128 [1] [0] [0] [1] [] []
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  dot_S2000x256_S256x128_S2000x128_1_0_0_1_n_n_wf : DotDims.WF S2000x256 S256x128 S2000x128 [1] [0] [0] [1] [] []
  dot_S2000x512_S512x128_S2000x128_1_0_0_1_n_n_wf : DotDims.WF S2000x512 S512x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S800000x128.size a
  hwx1_0 : ∀ i : grid1.Coords, EltTy.bits .f32 = 32 ∨ (Rect.block (s := S800000x128) S8000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x16.size a ≤ S800000x16.size a
  hwx1_1 : ∀ i : grid1.Coords, EltTy.bits .f32 = 32 ∨ (Rect.block (s := S800000x16) S8000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x128.size a ≤ S16x128.size a
  hwx1_2 : ∀ i : grid1.Coords, EltTy.bits .f32 = 32 ∨ (Rect.block (s := S16x128) S16x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8000x128.size a ≤ S800000x128.size a
  hwx1_4 : ∀ i : grid1.Coords, EltTy.bits .f32 = 32 ∨ (Rect.block (s := S800000x128) S8000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x256.size a ≤ S128x256.size a
  hwx2_3 : ∀ i : grid2.Coords, EltTy.bits .f32 = 32 ∨ (Rect.block (s := S128x256) S128x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x128.size a ≤ S256x128.size a
  hwx2_5 : ∀ i : grid2.Coords, EltTy.bits .f32 = 32 ∨ (Rect.block (s := S256x128) S256x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x128.size a ≤ S50000x128.size a
  hwx2_7 : ∀ i : grid2.Coords, EltTy.bits .f32 = 32 ∨ (Rect.block (s := S50000x128) S2000x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x128.size a ≤ S800000x128.size a
  hwx3_0 : ∀ i : grid3.Coords, EltTy.bits .f32 = 32 ∨ (Rect.block (s := S800000x128) S8000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x16.size a ≤ S800000x16.size a
  hwx3_1 : ∀ i : grid3.Coords, EltTy.bits .f32 = 32 ∨ (Rect.block (s := S800000x16) S8000x16.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S16x128.size a ≤ S16x128.size a
  hwx3_2 : ∀ i : grid3.Coords, EltTy.bits .f32 = 32 ∨ (Rect.block (s := S16x128) S16x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S8000x128.size a ≤ S800000x128.size a
  hwx3_4 : ∀ i : grid3.Coords, EltTy.bits .f32 = 32 ∨ (Rect.block (s := S800000x128) S8000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S50000x128.size a
  hwx4_1 : ∀ i : grid4.Coords, EltTy.bits .f32 = 32 ∨ (Rect.block (s := S50000x128) S2000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x256.size a ≤ S128x256.size a
  hwx4_3 : ∀ i : grid4.Coords, EltTy.bits .f32 = 32 ∨ (Rect.block (s := S128x256) S128x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S256x128.size a ≤ S256x128.size a
  hwx4_5 : ∀ i : grid4.Coords, EltTy.bits .f32 = 32 ∨ (Rect.block (s := S256x128) S256x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S2000x128.size a ≤ S50000x128.size a
  hwx4_7 : ∀ i : grid4.Coords, EltTy.bits .f32 = 32 ∨ (Rect.block (s := S50000x128) S2000x128.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8000x128.size a ≤ S800000x128.size a
  hwx5_0 : ∀ i : grid5.Coords, EltTy.bits .f32 = 32 ∨ (Rect.block (s := S800000x128) S8000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S8000x16.size a ≤ S800000x16.size a
  hwx5_1 : ∀ i : grid5.Coords, EltTy.bits .f32 = 32 ∨ (Rect.block (s := S800000x16) S8000x16.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S16x128.size a ≤ S16x128.size a
  hwx5_2 : ∀ i : grid5.Coords, EltTy.bits .f32 = 32 ∨ (Rect.block (s := S16x128) S16x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S8000x128.size a ≤ S800000x128.size a
  hwx5_4 : ∀ i : grid5.Coords, EltTy.bits .f32 = 32 ∨ (Rect.block (s := S800000x128) S8000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x128.size a ≤ S50000x128.size a
  hwx6_1 : ∀ i : grid6.Coords, EltTy.bits .f32 = 32 ∨ (Rect.block (s := S50000x128) S2000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x1.size a ≤ S1x1.size a
  hwx6_2 : ∀ i : grid6.Coords, EltTy.bits .f32 = 32 ∨ (Rect.block (s := S1x1) S1x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x256.size a ≤ S128x256.size a
  hwx6_3 : ∀ i : grid6.Coords, EltTy.bits .f32 = 32 ∨ (Rect.block (s := S128x256) S128x256.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x256.size a ≤ S1x256.size a
  hwx6_4 : ∀ i : grid6.Coords, EltTy.bits .f32 = 32 ∨ (Rect.block (s := S1x256) S1x256.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S256x128.size a ≤ S256x128.size a
  hwx6_5 : ∀ i : grid6.Coords, EltTy.bits .f32 = 32 ∨ (Rect.block (s := S256x128) S256x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x128.size a ≤ S1x128.size a
  hwx6_6 : ∀ i : grid6.Coords, EltTy.bits .f32 = 32 ∨ (Rect.block (s := S1x128) S1x128.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S2000x128.size a ≤ S50000x128.size a
  hwx6_7 : ∀ i : grid6.Coords, EltTy.bits .f32 = 32 ∨ (Rect.block (s := S50000x128) S2000x128.size (cc6_transform_7 i) (hinb6_7 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x512.size a ≤ S50000x512.size a
  hwx7_0 : ∀ i : grid7.Coords, EltTy.bits .f32 = 32 ∨ (Rect.block (s := S50000x512) S2000x512.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S512x128.size a ≤ S512x128.size a
  hwx7_1 : ∀ i : grid7.Coords, EltTy.bits .f32 = 32 ∨ (Rect.block (s := S512x128) S512x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2000x128.size a ≤ S50000x128.size a
  hwx7_3 : ∀ i : grid7.Coords, EltTy.bits .f32 = 32 ∨ (Rect.block (s := S50000x128) S2000x128.size (cc7_transform_3 i) (hinb7_3 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S8000x16_S16x128_S8000x128_1_0_0_1_n_n : DotDims S8000x16 S16x128 S8000x128 where
  lhsContracting := [1]
  rhsContracting := [0]
  lhsNonContracting := [0]
  rhsNonContracting := [1]
  lhsBatch := []
  rhsBatch := []
  wf := dot_S8000x16_S16x128_S8000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S8000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S16x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S8000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v5) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v28) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v19) S128x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v26) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v23) S256x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v27) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v29) S2000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v30) S8000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg2) S8000x16.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v32) S16x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v35) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v36) S8000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v29) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v39) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v52) S1x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v43) S128x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v50) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v47) S256x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v51) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v53) S2000x128.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v54) S8000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg2) S8000x16.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v56) S16x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v59) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v60) S8000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v53) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v63) S2000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v76) S1x1.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v67) S128x256.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v74) S1x256.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v71) S256x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v75) S1x128.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v77) S2000x128.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_v78) S2000x512.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg12) S512x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v79) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v80) S2000x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x16 : Shape := ⟨2, ![800000, 16]⟩
abbrev S128x128 : Shape := ⟨2, ![128, 128]⟩
abbrev S128 : Shape := ⟨1, ![128]⟩
abbrev S3x16x128 : Shape := ⟨3, ![3, 16, 128]⟩
abbrev S3x128 : Shape := ⟨2, ![3, 128]⟩
abbrev S3x128x256 : Shape := ⟨3, ![3, 128, 256]⟩
abbrev S3x256 : Shape := ⟨2, ![3, 256]⟩
abbrev S3x256x128 : Shape := ⟨3, ![3, 256, 128]⟩
abbrev S3 : Shape := ⟨1, ![3]⟩
abbrev S512x128 : Shape := ⟨2, ![512, 128]⟩
abbrev S1x800000 : Shape := ⟨2, ![1, 800000]⟩
abbrev S800000 : Shape := ⟨1, ![800000]⟩
abbrev S1x128 : Shape := ⟨2, ![1, 128]⟩
abbrev S1x16x128 : Shape := ⟨3, ![1, 16, 128]⟩
abbrev S16x128 : Shape := ⟨2, ![16, 128]⟩
abbrev S800000x128 : Shape := ⟨2, ![800000, 128]⟩
abbrev S_ : Shape := ⟨0, ![]⟩
abbrev S800000x1 : Shape := ⟨2, ![800000, 1]⟩
abbrev S1 : Shape := ⟨1, ![1]⟩
abbrev S1x128x256 : Shape := ⟨3, ![1, 128, 256]⟩
abbrev S128x256 : Shape := ⟨2, ![128, 256]⟩
abbrev S50000x256 : Shape := ⟨2, ![50000, 256]⟩
abbrev S1x256 : Shape := ⟨2, ![1, 256]⟩
abbrev S256 : Shape := ⟨1, ![256]⟩
abbrev S1x256x128 : Shape := ⟨3, ![1, 256, 128]⟩
abbrev S256x128 : Shape := ⟨2, ![256, 128]⟩
abbrev S50000x512 : Shape := ⟨2, ![50000, 512]⟩

abbrev nBuf : Space → Nat
  | .hbm => 189
  | .vmem => 0
  | .smem => 0
  | _ => 0

abbrev hbmTy0_0 (i : Nat) : BufTy := match i % 128 with
  | 0 => ⟨S50000x128, .f32⟩
  | 1 => ⟨S2x800000, .i32⟩
  | 2 => ⟨S800000x16, .f32⟩
  | 3 => ⟨S128x128, .f32⟩
  | 4 => ⟨S128, .f32⟩
  | 5 => ⟨S3x16x128, .f32⟩
  | 6 => ⟨S3x128, .f32⟩
  | 7 => ⟨S3x128x256, .f32⟩
  | 8 => ⟨S3x256, .f32⟩
  | 9 => ⟨S3x256x128, .f32⟩
  | 10 => ⟨S3x128, .f32⟩
  | 11 => ⟨S3, .f32⟩
  | 12 => ⟨S512x128, .f32⟩
  | 13 => ⟨S128, .f32⟩
  | 14 => ⟨S1x800000, .i32⟩
  | 15 => ⟨S800000, .i32⟩
  | 16 => ⟨S1x800000, .i32⟩
  | 17 => ⟨S800000, .i32⟩
  | 18 => ⟨S50000x128, .f32⟩
  | 19 => ⟨S1x128, .f32⟩
  | 20 => ⟨S50000x128, .f32⟩
  | 21 => ⟨S50000x128, .f32⟩
  | 22 => ⟨S1x16x128, .f32⟩
  | 23 => ⟨S16x128, .f32⟩
  | 24 => ⟨S800000x128, .f32⟩
  | 25 => ⟨S1x128, .f32⟩
  | 26 => ⟨S128, .f32⟩
  | 27 => ⟨S1x128, .f32⟩
  | 28 => ⟨S800000x128, .f32⟩
  | 29 => ⟨S800000x128, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000x128, .f32⟩
  | 39 => ⟨S800000x128, .f32⟩
  | 40 => ⟨S_, .f32⟩
  | 41 => ⟨S800000x128, .f32⟩
  | 42 => ⟨S800000x128, .f32⟩
  | 43 => ⟨S_, .f32⟩
  | 44 => ⟨S50000x128, .f32⟩
  | 45 => ⟨S800000x1, .i32⟩
  | 46 => ⟨S50000x128, .f32⟩
  | 47 => ⟨S1, .f32⟩
  | 48 => ⟨S_, .f32⟩
  | 49 => ⟨S_, .f32⟩
  | 50 => ⟨S_, .f32⟩
  | 51 => ⟨S50000x128, .f32⟩
  | 52 => ⟨S50000x128, .f32⟩
  | 53 => ⟨S50000x128, .f32⟩
  | 54 => ⟨S1x128x256, .f32⟩
  | 55 => ⟨S128x256, .f32⟩
  | 56 => ⟨S50000x256, .f32⟩
  | 57 => ⟨S1x256, .f32⟩
  | 58 => ⟨S256, .f32⟩
  | 59 => ⟨S1x256, .f32⟩
  | 60 => ⟨S50000x256, .f32⟩
  | 61 => ⟨S50000x256, .f32⟩
  | 62 => ⟨S_, .f32⟩
  | 63 => ⟨S50000x256, .f32⟩
  | 64 => ⟨S50000x256, .f32⟩
  | 65 => ⟨S1x256x128, .f32⟩
  | 66 => ⟨S256x128, .f32⟩
  | 67 => ⟨S50000x128, .f32⟩
  | 68 => ⟨S1x128, .f32⟩
  | 69 => ⟨S128, .f32⟩
  | 70 => ⟨S1x128, .f32⟩
  | 71 => ⟨S50000x128, .f32⟩
  | 72 => ⟨S50000x128, .f32⟩
  | 73 => ⟨S_, .f32⟩
  | 74 => ⟨S50000x128, .f32⟩
  | 75 => ⟨S50000x128, .f32⟩
  | 76 => ⟨S1x16x128, .f32⟩
  | 77 => ⟨S16x128, .f32⟩
  | 78 => ⟨S800000x128, .f32⟩
  | 79 => ⟨S1x128, .f32⟩
  | 80 => ⟨S128, .f32⟩
  | 81 => ⟨S1x128, .f32⟩
  | 82 => ⟨S800000x128, .f32⟩
  | 83 => ⟨S800000x128, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000x128, .f32⟩
  | 93 => ⟨S800000x128, .f32⟩
  | 94 => ⟨S_, .f32⟩
  | 95 => ⟨S800000x128, .f32⟩
  | 96 => ⟨S800000x128, .f32⟩
  | 97 => ⟨S_, .f32⟩
  | 98 => ⟨S50000x128, .f32⟩
  | 99 => ⟨S800000x1, .i32⟩
  | 100 => ⟨S50000x128, .f32⟩
  | 101 => ⟨S1, .f32⟩
  | 102 => ⟨S_, .f32⟩
  | 103 => ⟨S_, .f32⟩
  | 104 => ⟨S_, .f32⟩
  | 105 => ⟨S50000x128, .f32⟩
  | 106 => ⟨S50000x128, .f32⟩
  | 107 => ⟨S50000x128, .f32⟩
  | 108 => ⟨S1x128x256, .f32⟩
  | 109 => ⟨S128x256, .f32⟩
  | 110 => ⟨S50000x256, .f32⟩
  | 111 => ⟨S1x256, .f32⟩
  | 112 => ⟨S256, .f32⟩
  | 113 => ⟨S1x256, .f32⟩
  | 114 => ⟨S50000x256, .f32⟩
  | 115 => ⟨S50000x256, .f32⟩
  | 116 => ⟨S_, .f32⟩
  | 117 => ⟨S50000x256, .f32⟩
  | 118 => ⟨S50000x256, .f32⟩
  | 119 => ⟨S1x256x128, .f32⟩
  | 120 => ⟨S256x128, .f32⟩
  | 121 => ⟨S50000x128, .f32⟩
  | 122 => ⟨S1x128, .f32⟩
  | 123 => ⟨S128, .f32⟩
  | 124 => ⟨S1x128, .f32⟩
  | 125 => ⟨S50000x128, .f32⟩
  | 126 => ⟨S50000x128, .f32⟩
  | 127 => ⟨S_, .f32⟩
  | _ => ⟨S50000x128, .f32⟩

abbrev hbmTy0_1 (i : Nat) : BufTy := match i % 128 with
  | 0 => ⟨S50000x128, .f32⟩
  | 1 => ⟨S50000x128, .f32⟩
  | 2 => ⟨S1x16x128, .f32⟩
  | 3 => ⟨S16x128, .f32⟩
  | 4 => ⟨S800000x128, .f32⟩
  | 5 => ⟨S1x128, .f32⟩
  | 6 => ⟨S128, .f32⟩
  | 7 => ⟨S1x128, .f32⟩
  | 8 => ⟨S800000x128, .f32⟩
  | 9 => ⟨S800000x128, .f32⟩
  | 10 => ⟨S_, .i32⟩
  | 11 => ⟨S800000, .i32⟩
  | 12 => ⟨S800000, .i1⟩
  | 13 => ⟨S_, .i32⟩
  | 14 => ⟨S800000, .i32⟩
  | 15 => ⟨S800000, .i32⟩
  | 16 => ⟨S800000, .i32⟩
  | 17 => ⟨S800000x1, .i32⟩
  | 18 => ⟨S800000x128, .f32⟩
  | 19 => ⟨S800000x128, .f32⟩
  | 20 => ⟨S_, .f32⟩
  | 21 => ⟨S800000x128, .f32⟩
  | 22 => ⟨S800000x128, .f32⟩
  | 23 => ⟨S_, .f32⟩
  | 24 => ⟨S50000x128, .f32⟩
  | 25 => ⟨S800000x1, .i32⟩
  | 26 => ⟨S50000x128, .f32⟩
  | 27 => ⟨S1, .f32⟩
  | 28 => ⟨S_, .f32⟩
  | 29 => ⟨S_, .f32⟩
  | 30 => ⟨S_, .f32⟩
  | 31 => ⟨S50000x128, .f32⟩
  | 32 => ⟨S50000x128, .f32⟩
  | 33 => ⟨S50000x128, .f32⟩
  | 34 => ⟨S1x128x256, .f32⟩
  | 35 => ⟨S128x256, .f32⟩
  | 36 => ⟨S50000x256, .f32⟩
  | 37 => ⟨S1x256, .f32⟩
  | 38 => ⟨S256, .f32⟩
  | 39 => ⟨S1x256, .f32⟩
  | 40 => ⟨S50000x256, .f32⟩
  | 41 => ⟨S50000x256, .f32⟩
  | 42 => ⟨S_, .f32⟩
  | 43 => ⟨S50000x256, .f32⟩
  | 44 => ⟨S50000x256, .f32⟩
  | 45 => ⟨S1x256x128, .f32⟩
  | 46 => ⟨S256x128, .f32⟩
  | 47 => ⟨S50000x128, .f32⟩
  | 48 => ⟨S1x128, .f32⟩
  | 49 => ⟨S128, .f32⟩
  | 50 => ⟨S1x128, .f32⟩
  | 51 => ⟨S50000x128, .f32⟩
  | 52 => ⟨S50000x128, .f32⟩
  | 53 => ⟨S_, .f32⟩
  | 54 => ⟨S50000x128, .f32⟩
  | 55 => ⟨S50000x128, .f32⟩
  | 56 => ⟨S50000x512, .f32⟩
  | 57 => ⟨S50000x128, .f32⟩
  | 58 => ⟨S1x128, .f32⟩
  | 59 => ⟨S50000x128, .f32⟩
  | 60 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_0 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_call0_cst : Ref sig .tc := ⟨.hbm, 40, rfl⟩
abbrev main_call0_v0 : Ref sig .tc := ⟨.hbm, 41, rfl⟩
abbrev main_v24 : Ref sig .tc := ⟨.hbm, 42, rfl⟩
abbrev main_cst : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_1 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_call1_cst : Ref sig .tc := ⟨.hbm, 62, rfl⟩
abbrev main_call1_v0 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_call2_cst : Ref sig .tc := ⟨.hbm, 73, rfl⟩
abbrev main_call2_v0 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_c_2 : Ref sig .tc := ⟨.hbm, 84, rfl⟩
abbrev main_v60 : Ref sig .tc := ⟨.hbm, 85, rfl⟩
abbrev main_v61 : Ref sig .tc := ⟨.hbm, 86, rfl⟩
abbrev main_c_3 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_call3_cst : Ref sig .tc := ⟨.hbm, 94, rfl⟩
abbrev main_call3_v0 : Ref sig .tc := ⟨.hbm, 95, rfl⟩
abbrev main_v68 : Ref sig .tc := ⟨.hbm, 96, rfl⟩
abbrev main_cst_4 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_5 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_call4_cst : Ref sig .tc := ⟨.hbm, 116, rfl⟩
abbrev main_call4_v0 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_call5_cst : Ref sig .tc := ⟨.hbm, 127, rfl⟩
abbrev main_call5_v0 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_c_6 : Ref sig .tc := ⟨.hbm, 138, rfl⟩
abbrev main_v104 : Ref sig .tc := ⟨.hbm, 139, rfl⟩
abbrev main_v105 : Ref sig .tc := ⟨.hbm, 140, rfl⟩
abbrev main_c_7 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_call6_cst : Ref sig .tc := ⟨.hbm, 148, rfl⟩
abbrev main_call6_v0 : Ref sig .tc := ⟨.hbm, 149, rfl⟩
abbrev main_v112 : Ref sig .tc := ⟨.hbm, 150, rfl⟩
abbrev main_cst_8 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_cst_9 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_call7_cst : Ref sig .tc := ⟨.hbm, 170, rfl⟩
abbrev main_call7_v0 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_call8_cst : Ref sig .tc := ⟨.hbm, 181, rfl⟩
abbrev main_call8_v0 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x16x128_S1x16x128_0_0_0 : S3x16x128.Slices ![0, 0, 0] S1x16x128
  shapeCasts_S1x16x128_S16x128 : S1x16x128.ShapeCasts S16x128
  slices_S3x128_S1x128_0_0 : S3x128.Slices ![0, 0] S1x128
  shapeCasts_S1x128_S128 : S1x128.ShapeCasts S128
  bcast_S1x128_S800000x128_0_1 : S1x128.BroadcastsInDim S800000x128 (![0, 1] : Fin 2 → Fin S800000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S800000x128 : S_.BroadcastsInDim S800000x128 (![] : Fin 0 → Fin S800000x128.rank)
  bcast_S_S50000x128 : S_.BroadcastsInDim S50000x128 (![] : Fin 0 → Fin S50000x128.rank)
  slices_S3_S1_0 : S3.Slices ![0] S1
  shapeCasts_S1_S_ : S1.ShapeCasts S_
  slices_S3x128x256_S1x128x256_0_0_0 : S3x128x256.Slices ![0, 0, 0] S1x128x256
  shapeCasts_S1x128x256_S128x256 : S1x128x256.ShapeCasts S128x256
  slices_S3x256_S1x256_0_0 : S3x256.Slices ![0, 0] S1x256
  shapeCasts_S1x256_S256 : S1x256.ShapeCasts S256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  slices_S3x256x128_S1x256x128_0_0_0 : S3x256x128.Slices ![0, 0, 0] S1x256x128
  shapeCasts_S1x256x128_S256x128 : S1x256x128.ShapeCasts S256x128
  slices_S3x16x128_S1x16x128_1_0_0 : S3x16x128.Slices ![1, 0, 0] S1x16x128
  slices_S3x128_S1x128_1_0 : S3x128.Slices ![1, 0] S1x128
  slices_S3_S1_1 : S3.Slices ![1] S1
  slices_S3x128x256_S1x128x256_1_0_0 : S3x128x256.Slices ![1, 0, 0] S1x128x256
  slices_S3x256_S1x256_1_0 : S3x256.Slices ![1, 0] S1x256
  slices_S3x256x128_S1x256x128_1_0_0 : S3x256x128.Slices ![1, 0, 0] S1x256x128
  slices_S3x16x128_S1x16x128_2_0_0 : S3x16x128.Slices ![2, 0, 0] S1x16x128
  slices_S3x128_S1x128_2_0 : S3x128.Slices ![2, 0] S1x128
  slices_S3_S1_2 : S3.Slices ![2] S1
  slices_S3x128x256_S1x128x256_2_0_0 : S3x128x256.Slices ![2, 0, 0] S1x128x256
  slices_S3x256_S1x256_2_0 : S3x256.Slices ![2, 0] S1x256
  slices_S3x256x128_S1x256x128_2_0_0 : S3x256x128.Slices ![2, 0, 0] S1x256x128
  concatenates_S50000x128_S50000x128_S50000x128_S50000x128_S50000x512_d1 : Shape.Concatenates [S50000x128, S50000x128, S50000x128, S50000x128] S50000x512 1
  dot_S50000x128_S128x128_S50000x128_1_0_0_1_n_n_wf : DotDims.WF S50000x128 S128x128 S50000x128 [1] [0] [0] [1] [] []
  dot_S800000x16_S16x128_S800000x128_1_0_0_1_n_n_wf : DotDims.WF S800000x16 S16x128 S800000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  dot_S50000x256_S256x128_S50000x128_1_0_0_1_n_n_wf : DotDims.WF S50000x256 S256x128 S50000x128 [1] [0] [0] [1] [] []
  dot_S50000x512_S512x128_S50000x128_1_0_0_1_n_n_wf : DotDims.WF S50000x512 S512x128 S50000x128 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S800000x16_S16x128_S800000x128_1_0_0_1_n_n : DotDims S800000x16 S16x128 S800000x128 where
  lhsContracting := [1]
  rhsContracting := [0]
  lhsNonContracting := [0]
  rhsNonContracting := [1]
  lhsBatch := []
  rhsBatch := []
  wf := dot_S800000x16_S16x128_S800000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf

class Facts : Prop extends Facts₀ where

variable [Facts]
-- ==== Proof.Kernel.Reg0.lean ====
import proofs.«404173_j463856468344_1_alg».proof.Proof.Gen.Kernel.Launch
import proofs.«404173_j463856468344_1_alg».proof.Proof.Gen.Kernel.Skeleton
import proofs.«404173_j463856468344_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev r0_x : Rect S2000x128 := Rect.unit (s := S2000x128) ![0, 0] S2000x128.size inb_S2000x128_S2000x128_0_0
abbrev r0_w : Rect S128x128 := Rect.unit (s := S128x128) ![0, 0] S128x128.size inb_S128x128_S128x128_0_0
abbrev r0_b : Rect S1x128 := Rect.unit (s := S1x128) ![0, 0] S1x128.size inb_S1x128_S1x128_0_0

def out0_3 (x0 : Vec F S2000x128 .f32) (x1 : Vec F S128x128 .f32) (x2 : Vec F S1x128 .f32) : Vec F S2000x128 .f32 :=
  View.canon [⟨r0_x, k0_pay1 (View.ld x0 r0_x) (View.ld x1 r0_w) (View.ld x2 r0_b)⟩]

-- The body stores one function of the three blocks it reads over the whole output block.
theorem affine_body0 (c : Dev nD) {Φ O Φ' O' : sProp 𝕄} (hΦ : Φ = Φ') (hO : O = O') (i : grid0.Coords)
    (m0 : Memref sig .tc .vmem S2000x128 .f32) (h0 : m0.IsWhole) (m1 : Memref sig .tc .vmem S128x128 .f32) (h1 : m1.IsWhole)
    (m2 : Memref sig .tc .vmem S1x128 .f32) (h2 : m2.IsWhole) (m3 : Memref sig .tc .vmem S2000x128 .f32) (h3 : m3.IsWhole)
    {β0 β1 β2 β3 : Type} {b0 : β0 → Vec F S2000x128 .f32} {b1 : β1 → Vec F S128x128 .f32} {b2 : β2 → Vec F S1x128 .f32}
    {b3 : β3 → Vec F S2000x128 .f32} {x0 x1 x2 a0 a1 a2 a3} (e0 : ∀ d, b0 d = x0) (e1 : ∀ d, b1 d = x1) (e2 : ∀ d, b2 d = x2)
    (ha0 : a0 = x0) (ha1 : a1 = x1) (ha2 : a2 = x2) (ha3 : a3 = out0_3 x0 x1 x2) :
    iprop(Φ ∗ O ∗ (∃ d, owns (c : Thread nD τ) m0 fullShare (b0 d)) ∗ (∃ d, owns (c : Thread nD τ) m1 fullShare (b1 d))
        ∗ (∃ d, owns (c : Thread nD τ) m2 fullShare (b2 d)) ∗ (∃ d, owns (c : Thread nD τ) m3 fullShare (b3 d)))
      ⊢ wp frame (wpE (defs₀ (F := F)) Variants.none c none) Set.univ (cc0__affine_kernel i m0 h0 m1 h1 m2 h2 m3 h3) fun _ =>
        iprop(Φ' ∗ O' ∗ owns (c : Thread nD τ) m0 fullShare a0 ∗ owns (c : Thread nD τ) m1 fullShare a1 ∗ owns (c : Thread nD τ) m2 fullShare a2
          ∗ owns (c : Thread nD τ) m3 fullShare a3) := by
  subst hΦ hO ha0 ha1 ha2 ha3
  simp only [e0, e1, e2, cc0__affine_kernel_eq_skeleton]; unfold cc0__affine_kernel_skel owns
  iintro ⟨HΦ, Ho, ⟨%_, %f0, %hf0, H0⟩, ⟨%_, %f1, %hf1, H1⟩, ⟨%_, %f2, %hf2, H2⟩, ⟨%_, %f3, -, H3⟩⟩
  subst hf0 hf1 hf2
  sl_exec
  sl_step
  iframe HΦ Ho
  isplitl [H0]; · iexists f0; iframe H0; ipureintro; rfl
  isplitl [H1]; · iexists f1; iframe H1; ipureintro; rfl
  isplitl [H2]; · iexists f2; iframe H2; ipureintro; rfl
  iexists _; iframe H3; ipureintro
  exact View.read_writes_eq_canon _ _ _ (View.cover_of_tiled _ S2000x128.size (by rfl))

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) :
    (dat0 V c).after 3 t = out0_3 (iblk0 V c 0 t) (iblk0 V c 1 t) (iblk0 V c 2 t) := by dsimp only [dat0]

theorem body_obligation0 (c : Dev nD) : BodyObligation (dat0 (F := F) V c) (defs₀ (F := F)) Variants.none () Set.univ := fun t => by
  rw [bigSep_W0, bigSep_W0]
  refine affine_body0 (F := F) c rfl rfl (grid0.coords t) _ (hstage0_0 _) _ (hstage0_1 _) _ (hstage0_2 _) _ (hstage0_3 _)
    ?_ ?_ ?_ ?_ ?_ ?_ (after0_3 V c t)
  iterate 3 exact (dat0 V c).before_in_eq_fetched _ rfl (fun _ => rfl) (fun _ _ _ => rfl) (fun _ => rfl) t
  all_goals dsimp only [dat0]

end Cert.Kernel.Hand

end
-- ==== Proof.Kernel.Reg1.lean ====
import proofs.«404173_j463856468344_1_alg».proof.Proof.Gen.Kernel.Launch
import proofs.«404173_j463856468344_1_alg».proof.Proof.Gen.Kernel.Skeleton
import proofs.«404173_j463856468344_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev r1_x : Rect S8000x128 := Rect.unit (s := S8000x128) ![0, 0] S8000x128.size inb_S8000x128_S8000x128_0_0
abbrev r1_e : Rect S8000x16 := Rect.unit (s := S8000x16) ![0, 0] S8000x16.size inb_S8000x16_S8000x16_0_0
abbrev r1_w : Rect S16x128 := Rect.unit (s := S16x128) ![0, 0] S16x128.size inb_S16x128_S16x128_0_0
abbrev r1_b : Rect S1x128 := Rect.unit (s := S1x128) ![0, 0] S1x128.size inb_S1x128_S1x128_0_0

def out1_4 (x0 : Vec F S8000x128 .f32) (x1 : Vec F S8000x16 .f32) (x2 : Vec F S16x128 .f32) (x3 : Vec F S1x128 .f32) : Vec F S8000x128 .f32 :=
  View.canon [⟨r1_x, k1_pay1 (View.ld x0 r1_x) (View.ld x1 r1_e) (View.ld x2 r1_w) (View.ld x3 r1_b)⟩]

-- The body stores one function of the four blocks it reads over the whole output block.
theorem edge_body (c : Dev nD) {Φ O Φ' O' : sProp 𝕄} (hΦ : Φ = Φ') (hO : O = O') (i : grid1.Coords)
    (m0 : Memref sig .tc .vmem S8000x128 .f32) (h0 : m0.IsWhole) (m1 : Memref sig .tc .vmem S8000x16 .f32) (h1 : m1.IsWhole)
    (m2 : Memref sig .tc .vmem S16x128 .f32) (h2 : m2.IsWhole) (m3 : Memref sig .tc .vmem S1x128 .f32) (h3 : m3.IsWhole)
    (m4 : Memref sig .tc .vmem S8000x128 .f32) (h4 : m4.IsWhole) {β0 β1 β2 β3 β4 : Type}
    {b0 : β0 → Vec F S8000x128 .f32} {b1 : β1 → Vec F S8000x16 .f32} {b2 : β2 → Vec F S16x128 .f32} {b3 : β3 → Vec F S1x128 .f32}
    {b4 : β4 → Vec F S8000x128 .f32} {x0 x1 x2 x3 a0 a1 a2 a3 a4} (e0 : ∀ d, b0 d = x0) (e1 : ∀ d, b1 d = x1) (e2 : ∀ d, b2 d = x2)
    (e3 : ∀ d, b3 d = x3) (ha0 : a0 = x0) (ha1 : a1 = x1) (ha2 : a2 = x2) (ha3 : a3 = x3) (ha4 : a4 = out1_4 x0 x1 x2 x3) :
    iprop(Φ ∗ O ∗ (∃ d, owns (c : Thread nD τ) m0 fullShare (b0 d)) ∗ (∃ d, owns (c : Thread nD τ) m1 fullShare (b1 d))
        ∗ (∃ d, owns (c : Thread nD τ) m2 fullShare (b2 d)) ∗ (∃ d, owns (c : Thread nD τ) m3 fullShare (b3 d))
        ∗ (∃ d, owns (c : Thread nD τ) m4 fullShare (b4 d)))
      ⊢ wp frame (wpE (defs₀ (F := F)) Variants.none c none) Set.univ (cc1__edge_msg_kernel i m0 h0 m1 h1 m2 h2 m3 h3 m4 h4) fun _ =>
        iprop(Φ' ∗ O' ∗ owns (c : Thread nD τ) m0 fullShare a0 ∗ owns (c : Thread nD τ) m1 fullShare a1 ∗ owns (c : Thread nD τ) m2 fullShare a2
          ∗ owns (c : Thread nD τ) m3 fullShare a3 ∗ owns (c : Thread nD τ) m4 fullShare a4) := by
  subst hΦ hO ha0 ha1 ha2 ha3 ha4
  simp only [e0, e1, e2, e3, cc1__edge_msg_kernel_eq_skeleton]; unfold cc1__edge_msg_kernel_skel owns
  iintro ⟨HΦ, Ho, ⟨%_, %f0, %hf0, H0⟩, ⟨%_, %f1, %hf1, H1⟩, ⟨%_, %f2, %hf2, H2⟩, ⟨%_, %f3, %hf3, H3⟩, ⟨%_, %f4, -, H4⟩⟩
  subst hf0 hf1 hf2 hf3
  sl_exec
  sl_step
  iframe HΦ Ho
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  iexists _; iframe H4; ipureintro
  exact View.read_writes_eq_canon _ _ _ (View.cover_of_tiled _ S8000x128.size (by rfl))

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_4 (c : Dev nD) (t : Fin cfg1.N) :
    (dat1 V c).after 4 t = out1_4 (iblk1 V c 0 t) (iblk1 V c 1 t) (iblk1 V c 2 t) (iblk1 V c 3 t) := by dsimp only [dat1]

theorem body_obligation1 (c : Dev nD) : BodyObligation (dat1 (F := F) V c) (defs₀ (F := F)) Variants.none () Set.univ := fun t => by
  rw [bigSep_W1, bigSep_W1]
  refine edge_body (F := F) c rfl rfl (grid1.coords t) _ (hstage1_0 _) _ (hstage1_1 _) _ (hstage1_2 _) _ (hstage1_3 _) _ (hstage1_4 _)
    ?_ ?_ ?_ ?_ ?_ ?_ ?_ ?_ (after1_4 V c t)
  iterate 4 exact (dat1 V c).before_in_eq_fetched _ rfl (fun _ => rfl) (fun _ _ _ => rfl) (fun _ => rfl) t
  all_goals dsimp only [dat1]

end Cert.Kernel.Hand

end
-- ==== Proof.Kernel.RegLibC.lean ====
import proofs.«404173_j463856468344_1_alg».proof.Proof.Gen.Kernel.Launch
import proofs.«404173_j463856468344_1_alg».proof.Proof.Gen.Kernel.Skeleton
import proofs.«404173_j463856468344_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev rBlk : Rect S2000x128 := Rect.unit (s := S2000x128) ![0, 0] S2000x128.size inb_S2000x128_S2000x128_0_0
abbrev rOne : Rect S1x1 := Rect.unit (s := S1x1) ![0, 0] S1x1.size inb_S1x1_S1x1_0_0
abbrev rW1 : Rect S128x256 := Rect.unit (s := S128x256) ![0, 0] S128x256.size inb_S128x256_S128x256_0_0
abbrev rB1 : Rect S1x256 := Rect.unit (s := S1x256) ![0, 0] S1x256.size inb_S1x256_S1x256_0_0
abbrev rW2 : Rect S256x128 := Rect.unit (s := S256x128) ![0, 0] S256x128.size inb_S256x128_S256x128_0_0
abbrev rB2 : Rect S1x128 := Rect.unit (s := S1x128) ![0, 0] S1x128.size inb_S1x128_S1x128_0_0

-- A payload: the stored block as a function of the seven blocks read.
abbrev NodePay (F : FTy → Type) := Vec F S1x1 .f32 → Vec F S2000x128 .f32 → Vec F S2000x128 .f32 → Vec F S128x256 .f32 → Vec F S1x256 .f32 → Vec F S256x128 .f32 → Vec F S1x128 .f32 → FVec F S2000x128 .f32

-- The node-update program over an arbitrary payload of the seven values it reads.
noncomputable def nodeSkel (pay : NodePay F)
    (a1 a2 : Memref sig .tc .vmem S2000x128 .f32) (a3 : Memref sig .tc .vmem S1x1 .f32) (a4 : Memref sig .tc .vmem S128x256 .f32)
    (a5 : Memref sig .tc .vmem S1x256 .f32) (a6 : Memref sig .tc .vmem S256x128 .f32) (a7 : Memref sig .tc .vmem S1x128 .f32)
    (a8 : Memref sig .tc .vmem S2000x128 .f32) : Prog (TpuEff nD τ sig (Elt F) Λ₀ .tc) PUnit := do
  let v0 : Vec F S1x1 .f32 ← Prog.lift (.load a3 rOne.toLoadRect (View.loadsAt_vmem h_S1x1))
  let v4 : Vec F S2000x128 .f32 ← Prog.lift (.load a1 rBlk.toLoadRect (View.loadsAt_vmem h_S2000x128))
  let v8 : Vec F S2000x128 .f32 ← Prog.lift (.load a2 rBlk.toLoadRect (View.loadsAt_vmem h_S2000x128))
  let v12 : Vec F S128x256 .f32 ← Prog.lift (.load a4 rW1.toLoadRect (View.loadsAt_vmem h_S128x256))
  let v16 : Vec F S1x256 .f32 ← Prog.lift (.load a5 rB1.toLoadRect (View.loadsAt_vmem h_S1x256))
  let v23 : Vec F S256x128 .f32 ← Prog.lift (.load a6 rW2.toLoadRect (View.loadsAt_vmem h_S256x128))
  let v27 : Vec F S1x128 .f32 ← Prog.lift (.load a7 rB2.toLoadRect (View.loadsAt_vmem h_S1x128))
  let v33 : Vec F S2000x128 .f32 ← Prog.lift (.load a8 rBlk.toLoadRect (View.loadsAt_vmem h_S2000x128))
  Prog.lift (.store a8 rBlk (pay v0 v4 v8 v12 v16 v23 v27) Finset.univ (View.stores_vmem_bits_univ h_S2000x128 rfl) (.inl rfl))
  pure ⟨⟩

set_option maxHeartbeats 1000000 in
-- Whatever the payload: the inputs come back unchanged and the output is the payload of the inputs, since the one store tiles the block.
theorem sound_node (pay : NodePay F)
    (c : Dev nD) (E : Set ℕ)
    {a1 a2 : Memref sig .tc .vmem S2000x128 .f32} {a3 : Memref sig .tc .vmem S1x1 .f32} {a4 : Memref sig .tc .vmem S128x256 .f32}
    {a5 : Memref sig .tc .vmem S1x256 .f32} {a6 : Memref sig .tc .vmem S256x128 .f32} {a7 : Memref sig .tc .vmem S1x128 .f32}
    {a8 : Memref sig .tc .vmem S2000x128 .f32} {D0 D1 D2 D3 D4 D5 D6 D7 : Type}
    {b0 : D0 → Vec F S2000x128 .f32} {y0 : Vec F S2000x128 .f32} (h0 : ∀ d, b0 d = y0)
    {b1 : D1 → Vec F S2000x128 .f32} {y1 : Vec F S2000x128 .f32} (h1 : ∀ d, b1 d = y1)
    {b2 : D2 → Vec F S1x1 .f32} {y2 : Vec F S1x1 .f32} (h2 : ∀ d, b2 d = y2)
    {b3 : D3 → Vec F S128x256 .f32} {y3 : Vec F S128x256 .f32} (h3 : ∀ d, b3 d = y3)
    {b4 : D4 → Vec F S1x256 .f32} {y4 : Vec F S1x256 .f32} (h4 : ∀ d, b4 d = y4)
    {b5 : D5 → Vec F S256x128 .f32} {y5 : Vec F S256x128 .f32} (h5 : ∀ d, b5 d = y5)
    {b6 : D6 → Vec F S1x128 .f32} {y6 : Vec F S1x128 .f32} (h6 : ∀ d, b6 d = y6)
    {b7 : D7 → Vec F S2000x128 .f32} {y7 : Vec F S2000x128 .f32}
    (h7 : y7 = View.canon [⟨rBlk, pay (View.ld y2 rOne) (View.ld y0 rBlk) (View.ld y1 rBlk) (View.ld y3 rW1) (View.ld y4 rB1) (View.ld y5 rW2) (View.ld y6 rB2)⟩])
    {R1 R2 : sProp 𝕄} :
    iprop(R1 ∗ R2
        ∗ (∃ d, owns (c : Thread nD τ) a1 fullShare (b0 d)) ∗ (∃ d, owns (c : Thread nD τ) a2 fullShare (b1 d))
        ∗ (∃ d, owns (c : Thread nD τ) a3 fullShare (b2 d)) ∗ (∃ d, owns (c : Thread nD τ) a4 fullShare (b3 d))
        ∗ (∃ d, owns (c : Thread nD τ) a5 fullShare (b4 d)) ∗ (∃ d, owns (c : Thread nD τ) a6 fullShare (b5 d))
        ∗ (∃ d, owns (c : Thread nD τ) a7 fullShare (b6 d)) ∗ (∃ d, owns (c : Thread nD τ) a8 fullShare (b7 d)))
      ⊢ wp frame (wpE (defs₀ (F := F)) Variants.none c none) E (nodeSkel pay a1 a2 a3 a4 a5 a6 a7 a8) fun _ =>
        iprop(R1 ∗ R2
          ∗ owns (c : Thread nD τ) a1 fullShare y0 ∗ owns (c : Thread nD τ) a2 fullShare y1 ∗ owns (c : Thread nD τ) a3 fullShare y2
          ∗ owns (c : Thread nD τ) a4 fullShare y3 ∗ owns (c : Thread nD τ) a5 fullShare y4 ∗ owns (c : Thread nD τ) a6 fullShare y5
          ∗ owns (c : Thread nD τ) a7 fullShare y6 ∗ owns (c : Thread nD τ) a8 fullShare y7) := by
  subst h7
  simp only [h0, h1, h2, h3, h4, h5, h6]
  unfold nodeSkel owns
  iintro ⟨HR1, HR2, ⟨%_, %f0, %hf0, H0⟩, ⟨%_, %f1, %hf1, H1⟩, ⟨%_, %f2, %hf2, H2⟩, ⟨%_, %f3, %hf3, H3⟩, ⟨%_, %f4, %hf4, H4⟩, ⟨%_, %f5, %hf5, H5⟩, ⟨%_, %f6, %hf6, H6⟩, ⟨%d7, %f7, -, H7⟩⟩
  subst hf0; subst hf1; subst hf2; subst hf3; subst hf4; subst hf5; subst hf6
  sl_exec
  sl_step
  isplitl [HR1]; · iexact HR1
  isplitl [HR2]; · iexact HR2
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (View.cover_of_tiled [⟨rBlk, _⟩] S2000x128.size (by rfl))

end Cert.Kernel.Hand

end
-- ==== Proof.Kernel.Reg2.lean ====
import proofs.«404173_j463856468344_1_alg».proof.Proof.Kernel.RegLibC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA
open Idealize.ShloMosaic.Pipeline (Dat BodyObligation)

variable {F : FTy → Type} [FloatOps F]

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def out2_7 (x0 : Vec F S2000x128 .f32) (x1 : Vec F S2000x128 .f32) (x2 : Vec F S1x1 .f32) (x3 : Vec F S128x256 .f32) (x4 : Vec F S1x256 .f32) (x5 : Vec F S256x128 .f32) (x6 : Vec F S1x128 .f32) : Vec F S2000x128 .f32 :=
  View.canon [⟨rBlk, k2_pay1 (View.ld x2 rOne) (View.ld x0 rBlk) (View.ld x1 rBlk) (View.ld x3 rW1) (View.ld x4 rB1) (View.ld x5 rW2) (View.ld x6 rB2)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := rfl

theorem after2_7 (c : Dev nD) (t : Fin cfg2.N) :
    (dat2 V c).after 7 t = out2_7 (iblk2 V c 0 t) (iblk2 V c 1 t) (iblk2 V c 2 t) (iblk2 V c 3 t) (iblk2 V c 4 t) (iblk2 V c 5 t) (iblk2 V c 6 t) := by dsimp only [dat2]

-- The hypotheses h0 … h6 of sound_node for this region.
theorem before2 (c : Dev nD) (t : Fin cfg2.N) : ∀ w : Fin cfg2.W, w ≠ 7 → ∀ d, (dat2 V c).before w t d = (dat2 V c).after w t
  | ⟨0, _⟩, _, d | ⟨1, _⟩, _, d | ⟨2, _⟩, _, d | ⟨3, _⟩, _, d | ⟨4, _⟩, _, d | ⟨5, _⟩, _, d | ⟨6, _⟩, _, d =>
    (dat2 V c).before_in_eq_fetched _ rfl (fun _ => rfl) (fun _ _ _ => rfl) (fun _ => rfl) t d
  | ⟨7, _⟩, h, _ => absurd rfl h

theorem body_obligation2 (c : Dev nD) : BodyObligation (dat2 (F := F) V c) (defs₀ (F := F)) Variants.none () Set.univ := fun t => by
  rw [bigSep_W2, bigSep_W2]
  sl_whnfR [defs₀, Defs.onTc]
  rw [cc2__node_update_kernel_eq_skeleton]
  have hb := before2 V c t
  exact sound_node k2_pay1 c Set.univ (hb 0 (by decide)) (hb 1 (by decide)) (hb 2 (by decide)) (hb 3 (by decide)) (hb 4 (by decide)) (hb 5 (by decide)) (hb 6 (by decide)) (by dsimp only [dat2, out2_7])

end Cert.Kernel.Hand

end
-- ==== Proof.Kernel.Reg3.lean ====
import proofs.«404173_j463856468344_1_alg».proof.Proof.Kernel.Reg1

noncomputable section

namespace Cert.Kernel.Hand

open Cert.Kernel Cert.Kernel.Gen
open Idealize.ShloMosaic Idealize.ShloMosaic.TcCoe
open Idealize.SL Idealize.SL.RA
open Idealize.ShloMosaic.Pipeline (Dat BodyObligation)

variable {F : FTy → Type} [FloatOps F]

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def out3_4 (x0 : Vec F S8000x128 .f32) (x1 : Vec F S8000x16 .f32) (x2 : Vec F S16x128 .f32) (x3 : Vec F S1x128 .f32) : Vec F S8000x128 .f32 :=
  View.canon [⟨r1_x, k3_pay1 (View.ld x0 r1_x) (View.ld x1 r1_e) (View.ld x2 r1_w) (View.ld x3 r1_b)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_4 (c : Dev nD) (t : Fin cfg3.N) :
    (dat3 V c).after 4 t = out3_4 (iblk3 V c 0 t) (iblk3 V c 1 t) (iblk3 V c 2 t) (iblk3 V c 3 t) := by dsimp only [dat3]

theorem body_obligation3 (c : Dev nD) : BodyObligation (dat3 (F := F) V c) (defs₀ (F := F)) Variants.none () Set.univ := fun t => by
  rw [bigSep_W3, bigSep_W3]
  refine edge_body (F := F) c rfl rfl (grid1.coords t) _ (hstage3_0 _) _ (hstage3_1 _) _ (hstage3_2 _) _ (hstage3_3 _) _ (hstage3_4 _)
    ?_ ?_ ?_ ?_ ?_ ?_ ?_ ?_ (after3_4 V c t)
  iterate 4 exact (dat3 V c).before_in_eq_fetched _ rfl (fun _ => rfl) (fun _ _ _ => rfl) (fun _ => rfl) t
  all_goals dsimp only [dat3]

end Cert.Kernel.Hand

end
-- ==== Proof.Kernel.Reg4.lean ====
import proofs.«404173_j463856468344_1_alg».proof.Proof.Kernel.RegLibC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA
open Idealize.ShloMosaic.Pipeline (Dat BodyObligation)

variable {F : FTy → Type} [FloatOps F]

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def out4_7 (x0 : Vec F S2000x128 .f32) (x1 : Vec F S2000x128 .f32) (x2 : Vec F S1x1 .f32) (x3 : Vec F S128x256 .f32) (x4 : Vec F S1x256 .f32) (x5 : Vec F S256x128 .f32) (x6 : Vec F S1x128 .f32) : Vec F S2000x128 .f32 :=
  View.canon [⟨rBlk, k4_pay1 (View.ld x2 rOne) (View.ld x0 rBlk) (View.ld x1 rBlk) (View.ld x3 rW1) (View.ld x4 rB1) (View.ld x5 rW2) (View.ld x6 rB2)⟩]

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => out4_7 (iblk4 V c 0 t) (iblk4 V c 1 t) (iblk4 V c 2 t) (iblk4 V c 3 t) (iblk4 V c 4 t) (iblk4 V c 5 t) (iblk4 V c 6 t)
  Φ _ := Pipeline.ΦA spec4 c
  q _ := fullShare
  owed _ := 0

theorem A_eq4 (c : Dev nD) (w : Fin cfg4.W) : (dat4 V c).A w = V c (Pipeline.arrRef spec4 w) := rfl

theorem after4_7 (c : Dev nD) (t : Fin cfg4.N) :
    (dat4 V c).after 7 t = out4_7 (iblk4 V c 0 t) (iblk4 V c 1 t) (iblk4 V c 2 t) (iblk4 V c 3 t) (iblk4 V c 4 t) (iblk4 V c 5 t) (iblk4 V c 6 t) := by dsimp only [dat4]

-- The hypotheses h0 … h6 of sound_node for this region.
theorem before4 (c : Dev nD) (t : Fin cfg4.N) : ∀ w : Fin cfg4.W, w ≠ 7 → ∀ d, (dat4 V c).before w t d = (dat4 V c).after w t
  | ⟨0, _⟩, _, d | ⟨1, _⟩, _, d | ⟨2, _⟩, _, d | ⟨3, _⟩, _, d | ⟨4, _⟩, _, d | ⟨5, _⟩, _, d | ⟨6, _⟩, _, d =>
    (dat4 V c).before_in_eq_fetched _ rfl (fun _ => rfl) (fun _ _ _ => rfl) (fun _ => rfl) t d
  | ⟨7, _⟩, h, _ => absurd rfl h

theorem body_obligation4 (c : Dev nD) : BodyObligation (dat4 (F := F) V c) (defs₀ (F := F)) Variants.none () Set.univ := fun t => by
  rw [bigSep_W4, bigSep_W4]
  sl_whnfR [defs₀, Defs.onTc]
  rw [cc4__node_update_kernel_eq_skeleton]
  have hb := before4 V c t
  exact sound_node k4_pay1 c Set.univ (hb 0 (by decide)) (hb 1 (by decide)) (hb 2 (by decide)) (hb 3 (by decide)) (hb 4 (by decide)) (hb 5 (by decide)) (hb 6 (by decide)) (by dsimp only [dat4, out4_7])

end Cert.Kernel.Hand

end
-- ==== Proof.Kernel.Reg5.lean ====
import proofs.«404173_j463856468344_1_alg».proof.Proof.Kernel.Reg1

noncomputable section

namespace Cert.Kernel.Hand

open Cert.Kernel Cert.Kernel.Gen
open Idealize.ShloMosaic Idealize.ShloMosaic.TcCoe
open Idealize.SL Idealize.SL.RA
open Idealize.ShloMosaic.Pipeline (Dat BodyObligation)

variable {F : FTy → Type} [FloatOps F]

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def out5_4 (x0 : Vec F S8000x128 .f32) (x1 : Vec F S8000x16 .f32) (x2 : Vec F S16x128 .f32) (x3 : Vec F S1x128 .f32) : Vec F S8000x128 .f32 :=
  View.canon [⟨r1_x, k5_pay1 (View.ld x0 r1_x) (View.ld x1 r1_e) (View.ld x2 r1_w) (View.ld x3 r1_b)⟩]

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_4 (c : Dev nD) (t : Fin cfg5.N) :
    (dat5 V c).after 4 t = out5_4 (iblk5 V c 0 t) (iblk5 V c 1 t) (iblk5 V c 2 t) (iblk5 V c 3 t) := by dsimp only [dat5]

theorem body_obligation5 (c : Dev nD) : BodyObligation (dat5 (F := F) V c) (defs₀ (F := F)) Variants.none () Set.univ := fun t => by
  rw [bigSep_W5, bigSep_W5]
  refine edge_body (F := F) c rfl rfl (grid1.coords t) _ (hstage5_0 _) _ (hstage5_1 _) _ (hstage5_2 _) _ (hstage5_3 _) _ (hstage5_4 _)
    ?_ ?_ ?_ ?_ ?_ ?_ ?_ ?_ (after5_4 V c t)
  iterate 4 exact (dat5 V c).before_in_eq_fetched _ rfl (fun _ => rfl) (fun _ _ _ => rfl) (fun _ => rfl) t
  all_goals dsimp only [dat5]

end Cert.Kernel.Hand

end
-- ==== Proof.Kernel.Reg6.lean ====
import proofs.«404173_j463856468344_1_alg».proof.Proof.Kernel.RegLibC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA
open Idealize.ShloMosaic.Pipeline (Dat BodyObligation)

variable {F : FTy → Type} [FloatOps F]

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def out6_7 (x0 : Vec F S2000x128 .f32) (x1 : Vec F S2000x128 .f32) (x2 : Vec F S1x1 .f32) (x3 : Vec F S128x256 .f32) (x4 : Vec F S1x256 .f32) (x5 : Vec F S256x128 .f32) (x6 : Vec F S1x128 .f32) : Vec F S2000x128 .f32 :=
  View.canon [⟨rBlk, k6_pay1 (View.ld x2 rOne) (View.ld x0 rBlk) (View.ld x1 rBlk) (View.ld x3 rW1) (View.ld x4 rB1) (View.ld x5 rW2) (View.ld x6 rB2)⟩]

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => out6_7 (iblk6 V c 0 t) (iblk6 V c 1 t) (iblk6 V c 2 t) (iblk6 V c 3 t) (iblk6 V c 4 t) (iblk6 V c 5 t) (iblk6 V c 6 t)
  Φ _ := Pipeline.ΦA spec6 c
  q _ := fullShare
  owed _ := 0

theorem A_eq6 (c : Dev nD) (w : Fin cfg6.W) : (dat6 V c).A w = V c (Pipeline.arrRef spec6 w) := rfl

theorem after6_7 (c : Dev nD) (t : Fin cfg6.N) :
    (dat6 V c).after 7 t = out6_7 (iblk6 V c 0 t) (iblk6 V c 1 t) (iblk6 V c 2 t) (iblk6 V c 3 t) (iblk6 V c 4 t) (iblk6 V c 5 t) (iblk6 V c 6 t) := by dsimp only [dat6]

-- The hypotheses h0 … h6 of sound_node for this region.
theorem before6 (c : Dev nD) (t : Fin cfg6.N) : ∀ w : Fin cfg6.W, w ≠ 7 → ∀ d, (dat6 V c).before w t d = (dat6 V c).after w t
  | ⟨0, _⟩, _, d | ⟨1, _⟩, _, d | ⟨2, _⟩, _, d | ⟨3, _⟩, _, d | ⟨4, _⟩, _, d | ⟨5, _⟩, _, d | ⟨6, _⟩, _, d =>
    (dat6 V c).before_in_eq_fetched _ rfl (fun _ => rfl) (fun _ _ _ => rfl) (fun _ => rfl) t d
  | ⟨7, _⟩, h, _ => absurd rfl h

theorem body_obligation6 (c : Dev nD) : BodyObligation (dat6 (F := F) V c) (defs₀ (F := F)) Variants.none () Set.univ := fun t => by
  rw [bigSep_W6, bigSep_W6]
  sl_whnfR [defs₀, Defs.onTc]
  rw [cc6__node_update_kernel_eq_skeleton]
  have hb := before6 V c t
  exact sound_node k6_pay1 c Set.univ (hb 0 (by decide)) (hb 1 (by decide)) (hb 2 (by decide)) (hb 3 (by decide)) (hb 4 (by decide)) (hb 5 (by decide)) (hb 6 (by decide)) (by dsimp only [dat6, out6_7])

end Cert.Kernel.Hand

end
-- ==== Proof.Kernel.Reg7.lean ====
import proofs.«404173_j463856468344_1_alg».proof.Proof.Gen.Kernel.Launch
import proofs.«404173_j463856468344_1_alg».proof.Proof.Gen.Kernel.Skeleton
import proofs.«404173_j463856468344_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev r7_x : Rect S2000x512 := Rect.unit (s := S2000x512) ![0, 0] S2000x512.size inb_S2000x512_S2000x512_0_0
abbrev r7_w : Rect S512x128 := Rect.unit (s := S512x128) ![0, 0] S512x128.size inb_S512x128_S512x128_0_0
abbrev r7_b : Rect S1x128 := Rect.unit (s := S1x128) ![0, 0] S1x128.size inb_S1x128_S1x128_0_0
abbrev r7_o : Rect S2000x128 := Rect.unit (s := S2000x128) ![0, 0] S2000x128.size inb_S2000x128_S2000x128_0_0

def out7_3 (x0 : Vec F S2000x512 .f32) (x1 : Vec F S512x128 .f32) (x2 : Vec F S1x128 .f32) : Vec F S2000x128 .f32 :=
  View.canon [⟨r7_o, k7_pay1 (View.ld x0 r7_x) (View.ld x1 r7_w) (View.ld x2 r7_b)⟩]

-- The body stores one function of the three blocks it reads over the whole output block.
theorem affine_body7 (c : Dev nD) {Φ O Φ' O' : sProp 𝕄} (hΦ : Φ = Φ') (hO : O = O') (i : grid7.Coords)
    (m0 : Memref sig .tc .vmem S2000x512 .f32) (h0 : m0.IsWhole) (m1 : Memref sig .tc .vmem S512x128 .f32) (h1 : m1.IsWhole)
    (m2 : Memref sig .tc .vmem S1x128 .f32) (h2 : m2.IsWhole) (m3 : Memref sig .tc .vmem S2000x128 .f32) (h3 : m3.IsWhole)
    {β0 β1 β2 β3 : Type} {b0 : β0 → Vec F S2000x512 .f32} {b1 : β1 → Vec F S512x128 .f32} {b2 : β2 → Vec F S1x128 .f32}
    {b3 : β3 → Vec F S2000x128 .f32} {x0 x1 x2 a0 a1 a2 a3} (e0 : ∀ d, b0 d = x0) (e1 : ∀ d, b1 d = x1) (e2 : ∀ d, b2 d = x2)
    (ha0 : a0 = x0) (ha1 : a1 = x1) (ha2 : a2 = x2) (ha3 : a3 = out7_3 x0 x1 x2) :
    iprop(Φ ∗ O ∗ (∃ d, owns (c : Thread nD τ) m0 fullShare (b0 d)) ∗ (∃ d, owns (c : Thread nD τ) m1 fullShare (b1 d))
        ∗ (∃ d, owns (c : Thread nD τ) m2 fullShare (b2 d)) ∗ (∃ d, owns (c : Thread nD τ) m3 fullShare (b3 d)))
      ⊢ wp frame (wpE (defs₀ (F := F)) Variants.none c none) Set.univ (cc7__affine_kernel i m0 h0 m1 h1 m2 h2 m3 h3) fun _ =>
        iprop(Φ' ∗ O' ∗ owns (c : Thread nD τ) m0 fullShare a0 ∗ owns (c : Thread nD τ) m1 fullShare a1 ∗ owns (c : Thread nD τ) m2 fullShare a2
          ∗ owns (c : Thread nD τ) m3 fullShare a3) := by
  subst hΦ hO ha0 ha1 ha2 ha3
  simp only [e0, e1, e2, cc7__affine_kernel_eq_skeleton]; unfold cc7__affine_kernel_skel owns
  iintro ⟨HΦ, Ho, ⟨%_, %f0, %hf0, H0⟩, ⟨%_, %f1, %hf1, H1⟩, ⟨%_, %f2, %hf2, H2⟩, ⟨%_, %f3, -, H3⟩⟩
  subst hf0 hf1 hf2
  sl_exec
  sl_step
  iframe HΦ Ho
  isplitl [H0]; · iexists f0; iframe H0; ipureintro; rfl
  isplitl [H1]; · iexists f1; iframe H1; ipureintro; rfl
  isplitl [H2]; · iexists f2; iframe H2; ipureintro; rfl
  iexists _; iframe H3; ipureintro
  exact View.read_writes_eq_canon _ _ _ (View.cover_of_tiled _ S2000x128.size (by rfl))

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_3 (c : Dev nD) (t : Fin cfg7.N) :
    (dat7 V c).after 3 t = out7_3 (iblk7 V c 0 t) (iblk7 V c 1 t) (iblk7 V c 2 t) := by dsimp only [dat7]

theorem body_obligation7 (c : Dev nD) : BodyObligation (dat7 (F := F) V c) (defs₀ (F := F)) Variants.none () Set.univ := fun t => by
  rw [bigSep_W7, bigSep_W7]
  refine affine_body7 (F := F) c rfl rfl (grid7.coords t) _ (hstage7_0 _) _ (hstage7_1 _) _ (hstage7_2 _) _ (hstage7_3 _)
    ?_ ?_ ?_ ?_ ?_ ?_ (after7_3 V c t)
  iterate 3 exact (dat7 V c).before_in_eq_fetched _ rfl (fun _ => rfl) (fun _ _ _ => rfl) (fun _ => rfl) t
  all_goals dsimp only [dat7]

end Cert.Kernel.Hand

end
-- ==== Proof.Kernel.Chain.lean ====
import proofs.«404173_j463856468344_1_alg».proof.Proof.Kernel.Reg0
import proofs.«404173_j463856468344_1_alg».proof.Proof.Kernel.Reg1
import proofs.«404173_j463856468344_1_alg».proof.Proof.Kernel.Reg2
import proofs.«404173_j463856468344_1_alg».proof.Proof.Kernel.Reg3
import proofs.«404173_j463856468344_1_alg».proof.Proof.Kernel.Reg4
import proofs.«404173_j463856468344_1_alg».proof.Proof.Kernel.Reg5
import proofs.«404173_j463856468344_1_alg».proof.Proof.Kernel.Reg6
import proofs.«404173_j463856468344_1_alg».proof.Proof.Kernel.Reg7
import proofs.«404173_j463856468344_1_alg».proof.Proof.Gen.Kernel.Regions

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

abbrev atTc (W : Dev nD → Valuation τ sig (Elt F)) : (c : Dev nD) → (b : Ref sig .tc) → Buf (Elt F) ((c : Thread nD τ).loc b) :=
  fun c b => W c b

def X1 (c : Dev nD) : Valuation τ sig (Elt F) := V1 m c

def X2 (c : Dev nD) : Valuation τ sig (Elt F) := Function.update (X1 m c) main_v5 ((dat0 (atTc (X1 m)) c).arrAt 3 cfg0.N)

def X3 (c : Dev nD) : Valuation τ sig (Elt F) := StableHlo.after hostOps1 (X2 m c)
def X4 (c : Dev nD) : Valuation τ sig (Elt F) := StableHlo.after hostOps1_1 (X3 m c)

def X5 (c : Dev nD) : Valuation τ sig (Elt F) := Function.update (X4 m c) main_v12 ((dat1 (atTc (X4 m)) c).arrAt 4 cfg1.N)

def X6 (c : Dev nD) : Valuation τ sig (Elt F) := StableHlo.after hostOps2 (X5 m c)

def X7 (c : Dev nD) : Valuation τ sig (Elt F) := Function.update (X6 m c) main_v29 ((dat2 (atTc (X6 m)) c).arrAt 7 cfg2.N)
def X8 (c : Dev nD) : Valuation τ sig (Elt F) := StableHlo.after hostOps3 (X7 m c)
def X9 (c : Dev nD) : Valuation τ sig (Elt F) := StableHlo.after hostOps3_1 (X8 m c)

def X10 (c : Dev nD) : Valuation τ sig (Elt F) := Function.update (X9 m c) main_v36 ((dat3 (atTc (X9 m)) c).arrAt 4 cfg3.N)
def X11 (c : Dev nD) : Valuation τ sig (Elt F) := StableHlo.after hostOps4 (X10 m c)

def X12 (c : Dev nD) : Valuation τ sig (Elt F) := Function.update (X11 m c) main_v53 ((dat4 (atTc (X11 m)) c).arrAt 7 cfg4.N)
def X13 (c : Dev nD) : Valuation τ sig (Elt F) := StableHlo.after hostOps5 (X12 m c)
def X14 (c : Dev nD) : Valuation τ sig (Elt F) := StableHlo.after hostOps5_1 (X13 m c)

def X15 (c : Dev nD) : Valuation τ sig (Elt F) := Function.update (X14 m c) main_v60 ((dat5 (atTc (X14 m)) c).arrAt 4 cfg5.N)
def X16 (c : Dev nD) : Valuation τ sig (Elt F) := StableHlo.after hostOps6 (X15 m c)

def X17 (c : Dev nD) : Valuation τ sig (Elt F) := Function.update (X16 m c) main_v77 ((dat6 (atTc (X16 m)) c).arrAt 7 cfg6.N)

def X18 (c : Dev nD) : Valuation τ sig (Elt F) := StableHlo.after hostOps7 (X17 m c)

def X19 (c : Dev nD) : Valuation τ sig (Elt F) := Function.update (X18 m c) main_v80 ((dat7 (atTc (X18 m)) c).arrAt 3 cfg7.N)

def outs : Outs (F := F) := fun J r c =>
  match J with
  | 2 => X2 m c r
  | 5 => X5 m c r
  | 7 => X7 m c r
  | 10 => X10 m c r
  | 12 => X12 m c r
  | 15 => X15 m c r
  | 17 => X17 m c r
  | _ => X19 m c r

theorem V1_eq (c : Dev nD) : V1 m c = X1 m c := rfl
theorem V2_eq (c : Dev nD) : V2 m (outs m) c = X2 m c := by
  show Function.update (V1 m c) _ (X2 m c _) = X2 m c
  unfold X2 X1; rw [Function.update_self]
theorem V3_eq (c : Dev nD) : V3 m (outs m) c = X3 m c := by
  show StableHlo.after hostOps1 (V2 m (outs m) c) = _; rw [V2_eq]; rfl
theorem V4_eq (c : Dev nD) : V4 m (outs m) c = X4 m c := by
  show StableHlo.after hostOps1_1 (V3 m (outs m) c) = _; rw [V3_eq]; rfl
theorem V5_eq (c : Dev nD) : V5 m (outs m) c = X5 m c := by
  show Function.update (V4 m (outs m) c) _ (X5 m c _) = X5 m c
  rw [V4_eq]; unfold X5; rw [Function.update_self]
theorem V6_eq (c : Dev nD) : V6 m (outs m) c = X6 m c := by
  show StableHlo.after hostOps2 (V5 m (outs m) c) = _; rw [V5_eq]; rfl
theorem V7_eq (c : Dev nD) : V7 m (outs m) c = X7 m c := by
  show Function.update (V6 m (outs m) c) _ (X7 m c _) = X7 m c
  rw [V6_eq]; unfold X7; rw [Function.update_self]
theorem V8_eq (c : Dev nD) : V8 m (outs m) c = X8 m c := by
  show StableHlo.after hostOps3 (V7 m (outs m) c) = _; rw [V7_eq]; rfl
theorem V9_eq (c : Dev nD) : V9 m (outs m) c = X9 m c := by
  show StableHlo.after hostOps3_1 (V8 m (outs m) c) = _; rw [V8_eq]; rfl
theorem V10_eq (c : Dev nD) : V10 m (outs m) c = X10 m c := by
  show Function.update (V9 m (outs m) c) _ (X10 m c _) = X10 m c
  rw [V9_eq]; unfold X10; rw [Function.update_self]
theorem V11_eq (c : Dev nD) : V11 m (outs m) c = X11 m c := by
  show StableHlo.after hostOps4 (V10 m (outs m) c) = _; rw [V10_eq]; rfl
theorem V12_eq (c : Dev nD) : V12 m (outs m) c = X12 m c := by
  show Function.update (V11 m (outs m) c) _ (X12 m c _) = X12 m c
  rw [V11_eq]; unfold X12; rw [Function.update_self]
theorem V13_eq (c : Dev nD) : V13 m (outs m) c = X13 m c := by
  show StableHlo.after hostOps5 (V12 m (outs m) c) = _; rw [V12_eq]; rfl
theorem V14_eq (c : Dev nD) : V14 m (outs m) c = X14 m c := by
  show StableHlo.after hostOps5_1 (V13 m (outs m) c) = _; rw [V13_eq]; rfl
theorem V15_eq (c : Dev nD) : V15 m (outs m) c = X15 m c := by
  show Function.update (V14 m (outs m) c) _ (X15 m c _) = X15 m c
  rw [V14_eq]; unfold X15; rw [Function.update_self]
theorem V16_eq (c : Dev nD) : V16 m (outs m) c = X16 m c := by
  show StableHlo.after hostOps6 (V15 m (outs m) c) = _; rw [V15_eq]; rfl
theorem V17_eq (c : Dev nD) : V17 m (outs m) c = X17 m c := by
  show Function.update (V16 m (outs m) c) _ (X17 m c _) = X17 m c
  rw [V16_eq]; unfold X17; rw [Function.update_self]
theorem V18_eq (c : Dev nD) : V18 m (outs m) c = X18 m c := by
  show StableHlo.after hostOps7 (V17 m (outs m) c) = _; rw [V17_eq]; rfl
theorem V19_eq (c : Dev nD) : V19 m (outs m) c = X19 m c := by
  show Function.update (V18 m (outs m) c) _ (X19 m c _) = X19 m c
  rw [V18_eq]; unfold X19; rw [Function.update_self]

end Cert.Kernel.Hand

end
-- ==== Proof.Kernel.ChainTable.lean ====
import proofs.«404173_j463856468344_1_alg».proof.Proof.Kernel.Chain

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

theorem X2_out (c : Dev nD) : X2 m c main_v5 = (dat0 (atTc (X1 m)) c).arrAt 3 cfg0.N := by
  unfold X2; exact Function.update_self _ _ _
theorem X2_of_ne (c : Dev nD) (b : Ref sig .tc) (h : b ≠ main_v5) : X2 m c b = X1 m c b := by
  unfold X2; exact Function.update_of_ne (StableHlo.devRef_ne_of_ne h) _ _

theorem X5_out (c : Dev nD) : X5 m c main_v12 = (dat1 (atTc (X4 m)) c).arrAt 4 cfg1.N := by
  unfold X5; exact Function.update_self _ _ _
theorem X5_of_ne (c : Dev nD) (b : Ref sig .tc) (h : b ≠ main_v12) : X5 m c b = X4 m c b := by
  unfold X5; exact Function.update_of_ne (StableHlo.devRef_ne_of_ne h) _ _

theorem X7_out (c : Dev nD) : X7 m c main_v29 = (dat2 (atTc (X6 m)) c).arrAt 7 cfg2.N := by
  unfold X7; exact Function.update_self _ _ _
theorem X7_of_ne (c : Dev nD) (b : Ref sig .tc) (h : b ≠ main_v29) : X7 m c b = X6 m c b := by
  unfold X7; exact Function.update_of_ne (StableHlo.devRef_ne_of_ne h) _ _

theorem X10_out (c : Dev nD) : X10 m c main_v36 = (dat3 (atTc (X9 m)) c).arrAt 4 cfg3.N := by
  unfold X10; exact Function.update_self _ _ _
theorem X10_of_ne (c : Dev nD) (b : Ref sig .tc) (h : b ≠ main_v36) : X10 m c b = X9 m c b := by
  unfold X10; exact Function.update_of_ne (StableHlo.devRef_ne_of_ne h) _ _

theorem X12_out (c : Dev nD) : X12 m c main_v53 = (dat4 (atTc (X11 m)) c).arrAt 7 cfg4.N := by
  unfold X12; exact Function.update_self _ _ _
theorem X12_of_ne (c : Dev nD) (b : Ref sig .tc) (h : b ≠ main_v53) : X12 m c b = X11 m c b := by
  unfold X12; exact Function.update_of_ne (StableHlo.devRef_ne_of_ne h) _ _

theorem X15_out (c : Dev nD) : X15 m c main_v60 = (dat5 (atTc (X14 m)) c).arrAt 4 cfg5.N := by
  unfold X15; exact Function.update_self _ _ _
theorem X15_of_ne (c : Dev nD) (b : Ref sig .tc) (h : b ≠ main_v60) : X15 m c b = X14 m c b := by
  unfold X15; exact Function.update_of_ne (StableHlo.devRef_ne_of_ne h) _ _

theorem X17_out (c : Dev nD) : X17 m c main_v77 = (dat6 (atTc (X16 m)) c).arrAt 7 cfg6.N := by
  unfold X17; exact Function.update_self _ _ _
theorem X17_of_ne (c : Dev nD) (b : Ref sig .tc) (h : b ≠ main_v77) : X17 m c b = X16 m c b := by
  unfold X17; exact Function.update_of_ne (StableHlo.devRef_ne_of_ne h) _ _

theorem X19_out (c : Dev nD) : X19 m c main_v80 = (dat7 (atTc (X18 m)) c).arrAt 3 cfg7.N := by
  unfold X19; exact Function.update_self _ _ _
theorem X19_of_ne (c : Dev nD) (b : Ref sig .tc) (h : b ≠ main_v80) : X19 m c b = X18 m c b := by
  unfold X19; exact Function.update_of_ne (StableHlo.devRef_ne_of_ne h) _ _

def pdats : (p : Fin 8) → (c : Dev nD) → Dat τ (Elt F) Unit ℕ (UR sig nD τ) ℕ (cfgs p) c
  | ⟨0, _⟩ => fun c => dat0 (atTc (X1 m)) c
  | ⟨1, _⟩ => fun c => dat1 (atTc (X4 m)) c
  | ⟨2, _⟩ => fun c => dat2 (atTc (X6 m)) c
  | ⟨3, _⟩ => fun c => dat3 (atTc (X9 m)) c
  | ⟨4, _⟩ => fun c => dat4 (atTc (X11 m)) c
  | ⟨5, _⟩ => fun c => dat5 (atTc (X14 m)) c
  | ⟨6, _⟩ => fun c => dat6 (atTc (X16 m)) c
  | ⟨7, _⟩ => fun c => dat7 (atTc (X18 m)) c

end Cert.Kernel.Hand

end
-- ==== Proof.Kernel.SegBase.lean ====
import proofs.«404173_j463856468344_1_alg».proof.Proof.Kernel.ChainTable
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev 𝒱z : Variants := Variants.none
abbrev Lz : GSem nD τ sig → Finset Unit := fun _ => ∅
abbrev lvz : GSem nD τ sig → Unit → ℕ := fun _ _ => 0
abbrev Rest (c : Dev nD) : sProp 𝕄 := iprop((∃ r, prngReg c r) ∗ ∃ W, owes (c : Thread nD τ) (0 : CellTallies nD τ sig Unit) W)

-- Region p as a segment from the thread state at valuation V to the one at V', where V' is V updated at window o's array.
def regSeg (p : Fin 8) (kit : Pipeline.LaunchFacts (nD := nD) (τ := τ) cfgs p)
    (pd : (p : Fin 8) → (c : Dev nD) → Dat τ (Elt F) Unit ℕ (UR sig nD τ) ℕ (cfgs p) c)
    (V V' : Dev nD → Valuation τ sig (Elt F)) (o : Fin (cfgs p).W)
    (hbody : ∀ c, BodyObligation (pd p c) (defs₀ (F := F)) Variants.none () Set.univ)
    (hout : ∀ c, V' c (Pipeline.arrRef (cfgs p).spec o) = (pd p c).arrAt o (cfgs p).N)
    (hne : ∀ c (b : Ref sig .tc), b ≠ Pipeline.arrRef (cfgs p).spec o → V' c b = V c b)
    (hin : ∀ w, w ≠ o → ((cfgs p).win w).isOut = false := by decide)
    (hA : ∀ c w, (pd p c).A w = V c (Pipeline.arrRef (cfgs p).spec w) := by intros; rfl)
    (hΦ : ∀ c t, (pd p c).Φ t = Pipeline.ΦA (cfgs p).spec c := by intros; rfl)
    (hq : ∀ c w, (pd p c).q w = fullShare := by intros; rfl)
    (howed : ∀ c t, (pd p c).owed t = 0 := by intros; rfl)
    (hrec : ∀ c, (pd p c).recorded 0 = Set.univ := by intros; rfl) :
    Pipeline.RegionSeg (pcfgs (F := F)) adm pd () defs₀ 𝒱z Lz lvz p where
  win := kit.win.to₀
  block_pos := kit.block_pos
  stage_whole := kit.stage_whole
  K := PEmpty
  osem k := k.elim
  ho := Pipeline.OwnSemFacts.none _
  hbody c := (hbody c).loose
  hwaits := Pipeline.hwaits_of_owed_zero _ _ _ _ Lz lvz p howed
  pre c := iprop(StableHlo.held (c : Thread nD τ) (Pipeline.ucRefs τ sig) (V c) ∗ Rest c)
  post c := iprop(StableHlo.held (c : Thread nD τ) (Pipeline.ucRefs τ sig) (V' c) ∗ Rest c)
  X c := iprop(∃ r, prngReg c r)
  Y c := iprop(∃ r, prngReg c r)
  Z c := Pipeline.unscopedRest (cfgs p).spec c (atTc V c)
  hentry c := by
    unfold Pipeline.Dat.owesAt Pipeline.owesWithin
    rw [Pipeline.ownSems0_none, howed]
    have hsplit := Pipeline.arrays_of_unscopedBufs (p := p) pcfgs adm pd kit.win kit.arr_whole c
      ((pd p c).share_full (hq c)) (atTc V c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl (by rw [hrec]; trivial)
      iexact HO
    isplitl [Hp]; · iexact Hp
    iexact Hrest
  hin c := by
    rw [hΦ]; unfold Pipeline.ΦA
    iintro ⟨Hp, -, Hr⟩
    isplitl [Hr]; · iexact Hr
    iexact Hp
  hout c := by
    rw [Pipeline.ownSems0_none, hΦ]; unfold Pipeline.ΦA
    iintro ⟨Hr, Hp⟩
    isplitl [Hp]; · iexact Hp
    isplitr; · iempintro
    iexact Hr
  hexit c := by
    unfold Pipeline.Dat.owesAt Pipeline.owesWithin
    rw [howed]
    have hjoin := Pipeline.unscopedBufs_of_arrays (p := p) pcfgs adm kit.win kit.arr_whole c pd ((pd p c).share_full (hq c))
      (atTc V c) (atTc V' c) ((pd p c).arrAt · (cfgs p).N)
      (fun w => by
        by_cases hw : w = o
        · subst hw; exact (hout c).symm
        · exact (((pd p c).arrAt_in w (hin w hw) _).trans (hA c w)).trans (hne c _ fun e => hw (kit.win.arr_inj e)).symm)
      (fun b hb => hne c b fun e => hb (Finset.mem_image.mpr ⟨o, Finset.mem_univ _, e.symm⟩))
    rw [Pipeline.unscopedBufs_held] at hjoin
    iintro ⟨Ha, HO, HY, Hrest⟩
    imodintro
    isplitl [Ha Hrest]
    · iapply hjoin; isplitl [Ha] <;> iassumption
    isplitl [HY]; · iexact HY
    icases HO with ⟨%W, -, HO⟩; iexists W; iexact HO

end Cert.Kernel.Hand

end
-- ==== Proof.Kernel.Segs.lean ====
import proofs.«404173_j463856468344_1_alg».proof.Proof.Kernel.SegBase

noncomputable section

namespace Cert.Kernel.Hand

open Cert.Kernel Cert.Kernel.Gen
open Idealize.ShloMosaic

variable {F : FTy → Type} [FloatOps F] (m : (ℓ : Loc nD τ sig) → Buf (Elt F) ℓ)

def reg0 : Pipeline.RegionSeg (pcfgs (F := F)) adm (pdats m) () defs₀ 𝒱z Lz lvz 0 :=
  regSeg 0 launch0 (pdats m) (X1 m) (X2 m) 3 (body_obligation0 _) (X2_out m) (X2_of_ne m)

def reg1 : Pipeline.RegionSeg (pcfgs (F := F)) adm (pdats m) () defs₀ 𝒱z Lz lvz 1 :=
  regSeg 1 launch1 (pdats m) (X4 m) (X5 m) 4 (body_obligation1 _) (X5_out m) (X5_of_ne m)

def reg2 : Pipeline.RegionSeg (pcfgs (F := F)) adm (pdats m) () defs₀ 𝒱z Lz lvz 2 :=
  regSeg 2 launch2 (pdats m) (X6 m) (X7 m) 7 (body_obligation2 _) (X7_out m) (X7_of_ne m)

def reg3 : Pipeline.RegionSeg (pcfgs (F := F)) adm (pdats m) () defs₀ 𝒱z Lz lvz 3 :=
  regSeg 3 launch3 (pdats m) (X9 m) (X10 m) 4 (body_obligation3 _) (X10_out m) (X10_of_ne m)

def reg4 : Pipeline.RegionSeg (pcfgs (F := F)) adm (pdats m) () defs₀ 𝒱z Lz lvz 4 :=
  regSeg 4 launch4 (pdats m) (X11 m) (X12 m) 7 (body_obligation4 _) (X12_out m) (X12_of_ne m)

def reg5 : Pipeline.RegionSeg (pcfgs (F := F)) adm (pdats m) () defs₀ 𝒱z Lz lvz 5 :=
  regSeg 5 launch5 (pdats m) (X14 m) (X15 m) 4 (body_obligation5 _) (X15_out m) (X15_of_ne m)

def reg6 : Pipeline.RegionSeg (pcfgs (F := F)) adm (pdats m) () defs₀ 𝒱z Lz lvz 6 :=
  regSeg 6 launch6 (pdats m) (X16 m) (X17 m) 7 (body_obligation6 _) (X17_out m) (X17_of_ne m)

def reg7 : Pipeline.RegionSeg (pcfgs (F := F)) adm (pdats m) () defs₀ 𝒱z Lz lvz 7 :=
  regSeg 7 launch7 (pdats m) (X18 m) (X19 m) 3 (body_obligation7 _) (X19_out m) (X19_of_ne m)

end Cert.Kernel.Hand

end
-- ==== Proof.Kernel.Frame.lean ====
import proofs.«404173_j463856468344_1_alg».proof.Proof.Kernel.Segs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem launch_own : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem rest_init : iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ (iprop(emp) : sProp 𝕄))) ∗ levAts Lz lvz)
    ⊢ (|={Set.univ}=> bigSep Finset.univ (fun c : Dev nD => Rest (F := F) c) : sProp 𝕄) := by
  have hc : ∀ c : Dev nD, (iprop(unscopedSems0 c ∗ owes (c : Thread nD τ) ((0 : Dev nD → CellTallies nD τ sig Unit) c) ∅
      ∗ Pipeline.launchCred (0 : Dev nD → CellTallies nD τ sig Unit) c ∗ prngReg c (ρ c) ∗ (iprop(emp) : sProp 𝕄)) : sProp 𝕄) ⊢ Rest (F := F) c := fun c => by
    iintro ⟨-, HO, -, Hp, -⟩
    isplitl [Hp]; · iexists _; iexact Hp
    iexists ∅; iexact HO
  have hb : (bigSep Finset.univ fun c : Dev nD => (iprop(unscopedSems0 c ∗ owes (c : Thread nD τ) ((0 : Dev nD → CellTallies nD τ sig Unit) c) ∅
      ∗ Pipeline.launchCred (0 : Dev nD → CellTallies nD τ sig Unit) c ∗ prngReg c (ρ c) ∗ (iprop(emp) : sProp 𝕄)) : sProp 𝕄))
      ⊢ bigSep Finset.univ (fun c : Dev nD => Rest (F := F) c) := bigSep_mono fun c _ => hc c
  iintro ⟨H, -⟩
  imodintro
  iapply hb
  iexact H

theorem rest_end (c : Dev nD) : (Rest (F := F) c : sProp 𝕄) ⊢ iprop(∃ W, owes (c : Thread nD τ) (0 : CellTallies nD τ sig Unit) W) := by
  iintro ⟨-, H⟩; iexact H

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_cond (F := F) m emb₁ () 𝒱z Lz lvz (fun _ _ => rfl) ρ (outs m) (pdats m) 0 (fun _ => iprop(emp))
    (initOf (Pipeline.cells cfgs cellOf_inj) (Pipeline.launchToks cfgs cellOf_inj)) launch_own (fun _ c => Rest c) (rest_init ρ) (fun c => rest_end c)
    (reg0 m) (fun c => by rw [V1_eq]; exact .rfl) (fun c => by rw [V2_eq]; exact .rfl)
    (reg1 m) (fun c => by rw [V4_eq]; exact .rfl) (fun c => by rw [V5_eq]; exact .rfl)
    (reg2 m) (fun c => by rw [V6_eq]; exact .rfl) (fun c => by rw [V7_eq]; exact .rfl)
    (reg3 m) (fun c => by rw [V9_eq]; exact .rfl) (fun c => by rw [V10_eq]; exact .rfl)
    (reg4 m) (fun c => by rw [V11_eq]; exact .rfl) (fun c => by rw [V12_eq]; exact .rfl)
    (reg5 m) (fun c => by rw [V14_eq]; exact .rfl) (fun c => by rw [V15_eq]; exact .rfl)
    (reg6 m) (fun c => by rw [V16_eq]; exact .rfl) (fun c => by rw [V17_eq]; exact .rfl)
    (reg7 m) (fun c => by rw [V18_eq]; exact .rfl) (fun c => by rw [V19_eq]; exact .rfl)

end Cert.Kernel.Hand

end
-- ==== Proof.KernelIdeal.Reg0.lean ====
import proofs.«404173_j463856468344_1_alg».proof.Proof.Gen.KernelIdeal.Launch
import proofs.«404173_j463856468344_1_alg».proof.Proof.Gen.KernelIdeal.Skeleton
import proofs.«404173_j463856468344_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev r0_x : Rect S2000x128 := Rect.unit (s := S2000x128) ![0, 0] S2000x128.size inb_S2000x128_S2000x128_0_0
abbrev r0_w : Rect S128x128 := Rect.unit (s := S128x128) ![0, 0] S128x128.size inb_S128x128_S128x128_0_0
abbrev r0_b : Rect S1x128 := Rect.unit (s := S1x128) ![0, 0] S1x128.size inb_S1x128_S1x128_0_0

def out0_3 (x0 : Vec F S2000x128 .f32) (x1 : Vec F S128x128 .f32) (x2 : Vec F S1x128 .f32) : Vec F S2000x128 .f32 :=
  View.canon [⟨r0_x, k0_pay1 (View.ld x0 r0_x) (View.ld x1 r0_w) (View.ld x2 r0_b)⟩]

-- The body stores one function of the three blocks it reads over the whole output block.
theorem affine_body0 (c : Dev nD) {Φ O Φ' O' : sProp 𝕄} (hΦ : Φ = Φ') (hO : O = O') (i : grid0.Coords)
    (m0 : Memref sig .tc .vmem S2000x128 .f32) (h0 : m0.IsWhole) (m1 : Memref sig .tc .vmem S128x128 .f32) (h1 : m1.IsWhole)
    (m2 : Memref sig .tc .vmem S1x128 .f32) (h2 : m2.IsWhole) (m3 : Memref sig .tc .vmem S2000x128 .f32) (h3 : m3.IsWhole)
    {β0 β1 β2 β3 : Type} {b0 : β0 → Vec F S2000x128 .f32} {b1 : β1 → Vec F S128x128 .f32} {b2 : β2 → Vec F S1x128 .f32}
    {b3 : β3 → Vec F S2000x128 .f32} {x0 x1 x2 a0 a1 a2 a3} (e0 : ∀ d, b0 d = x0) (e1 : ∀ d, b1 d = x1) (e2 : ∀ d, b2 d = x2)
    (ha0 : a0 = x0) (ha1 : a1 = x1) (ha2 : a2 = x2) (ha3 : a3 = out0_3 x0 x1 x2) :
    iprop(Φ ∗ O ∗ (∃ d, owns (c : Thread nD τ) m0 fullShare (b0 d)) ∗ (∃ d, owns (c : Thread nD τ) m1 fullShare (b1 d))
        ∗ (∃ d, owns (c : Thread nD τ) m2 fullShare (b2 d)) ∗ (∃ d, owns (c : Thread nD τ) m3 fullShare (b3 d)))
      ⊢ wp frame (wpE (defs₀ (F := F)) Variants.none c none) Set.univ (cc0__affine_kernel i m0 h0 m1 h1 m2 h2 m3 h3) fun _ =>
        iprop(Φ' ∗ O' ∗ owns (c : Thread nD τ) m0 fullShare a0 ∗ owns (c : Thread nD τ) m1 fullShare a1 ∗ owns (c : Thread nD τ) m2 fullShare a2
          ∗ owns (c : Thread nD τ) m3 fullShare a3) := by
  subst hΦ hO ha0 ha1 ha2 ha3
  simp only [e0, e1, e2, cc0__affine_kernel_eq_skeleton]; unfold cc0__affine_kernel_skel owns
  iintro ⟨HΦ, Ho, ⟨%_, %f0, %hf0, H0⟩, ⟨%_, %f1, %hf1, H1⟩, ⟨%_, %f2, %hf2, H2⟩, ⟨%_, %f3, -, H3⟩⟩
  subst hf0 hf1 hf2
  sl_exec
  sl_step
  iframe HΦ Ho
  isplitl [H0]; · iexists f0; iframe H0; ipureintro; rfl
  isplitl [H1]; · iexists f1; iframe H1; ipureintro; rfl
  isplitl [H2]; · iexists f2; iframe H2; ipureintro; rfl
  iexists _; iframe H3; ipureintro
  exact View.read_writes_eq_canon _ _ _ (View.cover_of_tiled _ S2000x128.size (by rfl))

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) :
    (dat0 V c).after 3 t = out0_3 (iblk0 V c 0 t) (iblk0 V c 1 t) (iblk0 V c 2 t) := by dsimp only [dat0]

theorem body_obligation0 (c : Dev nD) : BodyObligation (dat0 (F := F) V c) (defs₀ (F := F)) Variants.none () Set.univ := fun t => by
  rw [bigSep_W0, bigSep_W0]
  refine affine_body0 (F := F) c rfl rfl (grid0.coords t) _ (hstage0_0 _) _ (hstage0_1 _) _ (hstage0_2 _) _ (hstage0_3 _)
    ?_ ?_ ?_ ?_ ?_ ?_ (after0_3 V c t)
  iterate 3 exact (dat0 V c).before_in_eq_fetched _ rfl (fun _ => rfl) (fun _ _ _ => rfl) (fun _ => rfl) t
  all_goals dsimp only [dat0]

end Cert.KernelIdeal.Hand

end
-- ==== Proof.KernelIdeal.Reg1.lean ====
import proofs.«404173_j463856468344_1_alg».proof.Proof.Gen.KernelIdeal.Launch
import proofs.«404173_j463856468344_1_alg».proof.Proof.Gen.KernelIdeal.Skeleton
import proofs.«404173_j463856468344_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev r1_x : Rect S8000x128 := Rect.unit (s := S8000x128) ![0, 0] S8000x128.size inb_S8000x128_S8000x128_0_0
abbrev r1_e : Rect S8000x16 := Rect.unit (s := S8000x16) ![0, 0] S8000x16.size inb_S8000x16_S8000x16_0_0
abbrev r1_w : Rect S16x128 := Rect.unit (s := S16x128) ![0, 0] S16x128.size inb_S16x128_S16x128_0_0
abbrev r1_b : Rect S1x128 := Rect.unit (s := S1x128) ![0, 0] S1x128.size inb_S1x128_S1x128_0_0

def out1_4 (x0 : Vec F S8000x128 .f32) (x1 : Vec F S8000x16 .f32) (x2 : Vec F S16x128 .f32) (x3 : Vec F S1x128 .f32) : Vec F S8000x128 .f32 :=
  View.canon [⟨r1_x, k1_pay1 (View.ld x0 r1_x) (View.ld x1 r1_e) (View.ld x2 r1_w) (View.ld x3 r1_b)⟩]

-- The body stores one function of the four blocks it reads over the whole output block.
theorem edge_body (c : Dev nD) {Φ O Φ' O' : sProp 𝕄} (hΦ : Φ = Φ') (hO : O = O') (i : grid1.Coords)
    (m0 : Memref sig .tc .vmem S8000x128 .f32) (h0 : m0.IsWhole) (m1 : Memref sig .tc .vmem S8000x16 .f32) (h1 : m1.IsWhole)
    (m2 : Memref sig .tc .vmem S16x128 .f32) (h2 : m2.IsWhole) (m3 : Memref sig .tc .vmem S1x128 .f32) (h3 : m3.IsWhole)
    (m4 : Memref sig .tc .vmem S8000x128 .f32) (h4 : m4.IsWhole) {β0 β1 β2 β3 β4 : Type}
    {b0 : β0 → Vec F S8000x128 .f32} {b1 : β1 → Vec F S8000x16 .f32} {b2 : β2 → Vec F S16x128 .f32} {b3 : β3 → Vec F S1x128 .f32}
    {b4 : β4 → Vec F S8000x128 .f32} {x0 x1 x2 x3 a0 a1 a2 a3 a4} (e0 : ∀ d, b0 d = x0) (e1 : ∀ d, b1 d = x1) (e2 : ∀ d, b2 d = x2)
    (e3 : ∀ d, b3 d = x3) (ha0 : a0 = x0) (ha1 : a1 = x1) (ha2 : a2 = x2) (ha3 : a3 = x3) (ha4 : a4 = out1_4 x0 x1 x2 x3) :
    iprop(Φ ∗ O ∗ (∃ d, owns (c : Thread nD τ) m0 fullShare (b0 d)) ∗ (∃ d, owns (c : Thread nD τ) m1 fullShare (b1 d))
        ∗ (∃ d, owns (c : Thread nD τ) m2 fullShare (b2 d)) ∗ (∃ d, owns (c : Thread nD τ) m3 fullShare (b3 d))
        ∗ (∃ d, owns (c : Thread nD τ) m4 fullShare (b4 d)))
      ⊢ wp frame (wpE (defs₀ (F := F)) Variants.none c none) Set.univ (cc1__edge_msg_kernel i m0 h0 m1 h1 m2 h2 m3 h3 m4 h4) fun _ =>
        iprop(Φ' ∗ O' ∗ owns (c : Thread nD τ) m0 fullShare a0 ∗ owns (c : Thread nD τ) m1 fullShare a1 ∗ owns (c : Thread nD τ) m2 fullShare a2
          ∗ owns (c : Thread nD τ) m3 fullShare a3 ∗ owns (c : Thread nD τ) m4 fullShare a4) := by
  subst hΦ hO ha0 ha1 ha2 ha3 ha4
  simp only [e0, e1, e2, e3, cc1__edge_msg_kernel_eq_skeleton]; unfold cc1__edge_msg_kernel_skel owns
  iintro ⟨HΦ, Ho, ⟨%_, %f0, %hf0, H0⟩, ⟨%_, %f1, %hf1, H1⟩, ⟨%_, %f2, %hf2, H2⟩, ⟨%_, %f3, %hf3, H3⟩, ⟨%_, %f4, -, H4⟩⟩
  subst hf0 hf1 hf2 hf3
  sl_exec
  sl_step
  iframe HΦ Ho
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  iexists _; iframe H4; ipureintro
  exact View.read_writes_eq_canon _ _ _ (View.cover_of_tiled _ S8000x128.size (by rfl))

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_4 (c : Dev nD) (t : Fin cfg1.N) :
    (dat1 V c).after 4 t = out1_4 (iblk1 V c 0 t) (iblk1 V c 1 t) (iblk1 V c 2 t) (iblk1 V c 3 t) := by dsimp only [dat1]

theorem body_obligation1 (c : Dev nD) : BodyObligation (dat1 (F := F) V c) (defs₀ (F := F)) Variants.none () Set.univ := fun t => by
  rw [bigSep_W1, bigSep_W1]
  refine edge_body (F := F) c rfl rfl (grid1.coords t) _ (hstage1_0 _) _ (hstage1_1 _) _ (hstage1_2 _) _ (hstage1_3 _) _ (hstage1_4 _)
    ?_ ?_ ?_ ?_ ?_ ?_ ?_ ?_ (after1_4 V c t)
  iterate 4 exact (dat1 V c).before_in_eq_fetched _ rfl (fun _ => rfl) (fun _ _ _ => rfl) (fun _ => rfl) t
  all_goals dsimp only [dat1]

end Cert.KernelIdeal.Hand

end
-- ==== Proof.KernelIdeal.RegLibC.lean ====
import proofs.«404173_j463856468344_1_alg».proof.Proof.Gen.KernelIdeal.Launch
import proofs.«404173_j463856468344_1_alg».proof.Proof.Gen.KernelIdeal.Skeleton
import proofs.«404173_j463856468344_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev rBlk : Rect S2000x128 := Rect.unit (s := S2000x128) ![0, 0] S2000x128.size inb_S2000x128_S2000x128_0_0
abbrev rOne : Rect S1x1 := Rect.unit (s := S1x1) ![0, 0] S1x1.size inb_S1x1_S1x1_0_0
abbrev rW1 : Rect S128x256 := Rect.unit (s := S128x256) ![0, 0] S128x256.size inb_S128x256_S128x256_0_0
abbrev rB1 : Rect S1x256 := Rect.unit (s := S1x256) ![0, 0] S1x256.size inb_S1x256_S1x256_0_0
abbrev rW2 : Rect S256x128 := Rect.unit (s := S256x128) ![0, 0] S256x128.size inb_S256x128_S256x128_0_0
abbrev rB2 : Rect S1x128 := Rect.unit (s := S1x128) ![0, 0] S1x128.size inb_S1x128_S1x128_0_0

-- A payload: the stored block as a function of the seven blocks read.
abbrev NodePay (F : FTy → Type) := Vec F S1x1 .f32 → Vec F S2000x128 .f32 → Vec F S2000x128 .f32 → Vec F S128x256 .f32 → Vec F S1x256 .f32 → Vec F S256x128 .f32 → Vec F S1x128 .f32 → FVec F S2000x128 .f32

-- The node-update program over an arbitrary payload of the seven values it reads.
noncomputable def nodeSkel (pay : NodePay F)
    (a1 a2 : Memref sig .tc .vmem S2000x128 .f32) (a3 : Memref sig .tc .vmem S1x1 .f32) (a4 : Memref sig .tc .vmem S128x256 .f32)
    (a5 : Memref sig .tc .vmem S1x256 .f32) (a6 : Memref sig .tc .vmem S256x128 .f32) (a7 : Memref sig .tc .vmem S1x128 .f32)
    (a8 : Memref sig .tc .vmem S2000x128 .f32) : Prog (TpuEff nD τ sig (Elt F) Λ₀ .tc) PUnit := do
  let v0 : Vec F S1x1 .f32 ← Prog.lift (.load a3 rOne.toLoadRect (View.loadsAt_vmem h_S1x1))
  let v4 : Vec F S2000x128 .f32 ← Prog.lift (.load a1 rBlk.toLoadRect (View.loadsAt_vmem h_S2000x128))
  let v8 : Vec F S2000x128 .f32 ← Prog.lift (.load a2 rBlk.toLoadRect (View.loadsAt_vmem h_S2000x128))
  let v12 : Vec F S128x256 .f32 ← Prog.lift (.load a4 rW1.toLoadRect (View.loadsAt_vmem h_S128x256))
  let v16 : Vec F S1x256 .f32 ← Prog.lift (.load a5 rB1.toLoadRect (View.loadsAt_vmem h_S1x256))
  let v23 : Vec F S256x128 .f32 ← Prog.lift (.load a6 rW2.toLoadRect (View.loadsAt_vmem h_S256x128))
  let v27 : Vec F S1x128 .f32 ← Prog.lift (.load a7 rB2.toLoadRect (View.loadsAt_vmem h_S1x128))
  let v33 : Vec F S2000x128 .f32 ← Prog.lift (.load a8 rBlk.toLoadRect (View.loadsAt_vmem h_S2000x128))
  Prog.lift (.store a8 rBlk (pay v0 v4 v8 v12 v16 v23 v27) Finset.univ (View.stores_vmem_bits_univ h_S2000x128 rfl) (.inl rfl))
  pure ⟨⟩

set_option maxHeartbeats 1000000 in
-- Whatever the payload: the inputs come back unchanged and the output is the payload of the inputs, since the one store tiles the block.
theorem sound_node (pay : NodePay F)
    (c : Dev nD) (E : Set ℕ)
    {a1 a2 : Memref sig .tc .vmem S2000x128 .f32} {a3 : Memref sig .tc .vmem S1x1 .f32} {a4 : Memref sig .tc .vmem S128x256 .f32}
    {a5 : Memref sig .tc .vmem S1x256 .f32} {a6 : Memref sig .tc .vmem S256x128 .f32} {a7 : Memref sig .tc .vmem S1x128 .f32}
    {a8 : Memref sig .tc .vmem S2000x128 .f32} {D0 D1 D2 D3 D4 D5 D6 D7 : Type}
    {b0 : D0 → Vec F S2000x128 .f32} {y0 : Vec F S2000x128 .f32} (h0 : ∀ d, b0 d = y0)
    {b1 : D1 → Vec F S2000x128 .f32} {y1 : Vec F S2000x128 .f32} (h1 : ∀ d, b1 d = y1)
    {b2 : D2 → Vec F S1x1 .f32} {y2 : Vec F S1x1 .f32} (h2 : ∀ d, b2 d = y2)
    {b3 : D3 → Vec F S128x256 .f32} {y3 : Vec F S128x256 .f32} (h3 : ∀ d, b3 d = y3)
    {b4 : D4 → Vec F S1x256 .f32} {y4 : Vec F S1x256 .f32} (h4 : ∀ d, b4 d = y4)
    {b5 : D5 → Vec F S256x128 .f32} {y5 : Vec F S256x128 .f32} (h5 : ∀ d, b5 d = y5)
    {b6 : D6 → Vec F S1x128 .f32} {y6 : Vec F S1x128 .f32} (h6 : ∀ d, b6 d = y6)
    {b7 : D7 → Vec F S2000x128 .f32} {y7 : Vec F S2000x128 .f32}
    (h7 : y7 = View.canon [⟨rBlk, pay (View.ld y2 rOne) (View.ld y0 rBlk) (View.ld y1 rBlk) (View.ld y3 rW1) (View.ld y4 rB1) (View.ld y5 rW2) (View.ld y6 rB2)⟩])
    {R1 R2 : sProp 𝕄} :
    iprop(R1 ∗ R2
        ∗ (∃ d, owns (c : Thread nD τ) a1 fullShare (b0 d)) ∗ (∃ d, owns (c : Thread nD τ) a2 fullShare (b1 d))
        ∗ (∃ d, owns (c : Thread nD τ) a3 fullShare (b2 d)) ∗ (∃ d, owns (c : Thread nD τ) a4 fullShare (b3 d))
        ∗ (∃ d, owns (c : Thread nD τ) a5 fullShare (b4 d)) ∗ (∃ d, owns (c : Thread nD τ) a6 fullShare (b5 d))
        ∗ (∃ d, owns (c : Thread nD τ) a7 fullShare (b6 d)) ∗ (∃ d, owns (c : Thread nD τ) a8 fullShare (b7 d)))
      ⊢ wp frame (wpE (defs₀ (F := F)) Variants.none c none) E (nodeSkel pay a1 a2 a3 a4 a5 a6 a7 a8) fun _ =>
        iprop(R1 ∗ R2
          ∗ owns (c : Thread nD τ) a1 fullShare y0 ∗ owns (c : Thread nD τ) a2 fullShare y1 ∗ owns (c : Thread nD τ) a3 fullShare y2
          ∗ owns (c : Thread nD τ) a4 fullShare y3 ∗ owns (c : Thread nD τ) a5 fullShare y4 ∗ owns (c : Thread nD τ) a6 fullShare y5
          ∗ owns (c : Thread nD τ) a7 fullShare y6 ∗ owns (c : Thread nD τ) a8 fullShare y7) := by
  subst h7
  simp only [h0, h1, h2, h3, h4, h5, h6]
  unfold nodeSkel owns
  iintro ⟨HR1, HR2, ⟨%_, %f0, %hf0, H0⟩, ⟨%_, %f1, %hf1, H1⟩, ⟨%_, %f2, %hf2, H2⟩, ⟨%_, %f3, %hf3, H3⟩, ⟨%_, %f4, %hf4, H4⟩, ⟨%_, %f5, %hf5, H5⟩, ⟨%_, %f6, %hf6, H6⟩, ⟨%d7, %f7, -, H7⟩⟩
  subst hf0; subst hf1; subst hf2; subst hf3; subst hf4; subst hf5; subst hf6
  sl_exec
  sl_step
  isplitl [HR1]; · iexact HR1
  isplitl [HR2]; · iexact HR2
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (View.cover_of_tiled [⟨rBlk, _⟩] S2000x128.size (by rfl))

end Cert.KernelIdeal.Hand

end
-- ==== Proof.KernelIdeal.Reg2.lean ====
import proofs.«404173_j463856468344_1_alg».proof.Proof.KernelIdeal.RegLibC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA
open Idealize.ShloMosaic.Pipeline (Dat BodyObligation)

variable {F : FTy → Type} [FloatOps F]

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def out2_7 (x0 : Vec F S2000x128 .f32) (x1 : Vec F S2000x128 .f32) (x2 : Vec F S1x1 .f32) (x3 : Vec F S128x256 .f32) (x4 : Vec F S1x256 .f32) (x5 : Vec F S256x128 .f32) (x6 : Vec F S1x128 .f32) : Vec F S2000x128 .f32 :=
  View.canon [⟨rBlk, k2_pay1 (View.ld x2 rOne) (View.ld x0 rBlk) (View.ld x1 rBlk) (View.ld x3 rW1) (View.ld x4 rB1) (View.ld x5 rW2) (View.ld x6 rB2)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := rfl

theorem after2_7 (c : Dev nD) (t : Fin cfg2.N) :
    (dat2 V c).after 7 t = out2_7 (iblk2 V c 0 t) (iblk2 V c 1 t) (iblk2 V c 2 t) (iblk2 V c 3 t) (iblk2 V c 4 t) (iblk2 V c 5 t) (iblk2 V c 6 t) := by dsimp only [dat2]

-- The hypotheses h0 … h6 of sound_node for this region.
theorem before2 (c : Dev nD) (t : Fin cfg2.N) : ∀ w : Fin cfg2.W, w ≠ 7 → ∀ d, (dat2 V c).before w t d = (dat2 V c).after w t
  | ⟨0, _⟩, _, d | ⟨1, _⟩, _, d | ⟨2, _⟩, _, d | ⟨3, _⟩, _, d | ⟨4, _⟩, _, d | ⟨5, _⟩, _, d | ⟨6, _⟩, _, d =>
    (dat2 V c).before_in_eq_fetched _ rfl (fun _ => rfl) (fun _ _ _ => rfl) (fun _ => rfl) t d
  | ⟨7, _⟩, h, _ => absurd rfl h

theorem body_obligation2 (c : Dev nD) : BodyObligation (dat2 (F := F) V c) (defs₀ (F := F)) Variants.none () Set.univ := fun t => by
  rw [bigSep_W2, bigSep_W2]
  sl_whnfR [defs₀, Defs.onTc]
  rw [cc2__node_update_kernel_eq_skeleton]
  have hb := before2 V c t
  exact sound_node k2_pay1 c Set.univ (hb 0 (by decide)) (hb 1 (by decide)) (hb 2 (by decide)) (hb 3 (by decide)) (hb 4 (by decide)) (hb 5 (by decide)) (hb 6 (by decide)) (by dsimp only [dat2, out2_7])

end Cert.KernelIdeal.Hand

end
-- ==== Proof.KernelIdeal.Reg3.lean ====
import proofs.«404173_j463856468344_1_alg».proof.Proof.KernelIdeal.Reg1

noncomputable section

namespace Cert.KernelIdeal.Hand

open Cert.KernelIdeal Cert.KernelIdeal.Gen
open Idealize.ShloMosaic Idealize.ShloMosaic.TcCoe
open Idealize.SL Idealize.SL.RA
open Idealize.ShloMosaic.Pipeline (Dat BodyObligation)

variable {F : FTy → Type} [FloatOps F]

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def out3_4 (x0 : Vec F S8000x128 .f32) (x1 : Vec F S8000x16 .f32) (x2 : Vec F S16x128 .f32) (x3 : Vec F S1x128 .f32) : Vec F S8000x128 .f32 :=
  View.canon [⟨r1_x, k3_pay1 (View.ld x0 r1_x) (View.ld x1 r1_e) (View.ld x2 r1_w) (View.ld x3 r1_b)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_4 (c : Dev nD) (t : Fin cfg3.N) :
    (dat3 V c).after 4 t = out3_4 (iblk3 V c 0 t) (iblk3 V c 1 t) (iblk3 V c 2 t) (iblk3 V c 3 t) := by dsimp only [dat3]

theorem body_obligation3 (c : Dev nD) : BodyObligation (dat3 (F := F) V c) (defs₀ (F := F)) Variants.none () Set.univ := fun t => by
  rw [bigSep_W3, bigSep_W3]
  refine edge_body (F := F) c rfl rfl (grid1.coords t) _ (hstage3_0 _) _ (hstage3_1 _) _ (hstage3_2 _) _ (hstage3_3 _) _ (hstage3_4 _)
    ?_ ?_ ?_ ?_ ?_ ?_ ?_ ?_ (after3_4 V c t)
  iterate 4 exact (dat3 V c).before_in_eq_fetched _ rfl (fun _ => rfl) (fun _ _ _ => rfl) (fun _ => rfl) t
  all_goals dsimp only [dat3]

end Cert.KernelIdeal.Hand

end
-- ==== Proof.KernelIdeal.Reg4.lean ====
import proofs.«404173_j463856468344_1_alg».proof.Proof.KernelIdeal.RegLibC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA
open Idealize.ShloMosaic.Pipeline (Dat BodyObligation)

variable {F : FTy → Type} [FloatOps F]

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def out4_7 (x0 : Vec F S2000x128 .f32) (x1 : Vec F S2000x128 .f32) (x2 : Vec F S1x1 .f32) (x3 : Vec F S128x256 .f32) (x4 : Vec F S1x256 .f32) (x5 : Vec F S256x128 .f32) (x6 : Vec F S1x128 .f32) : Vec F S2000x128 .f32 :=
  View.canon [⟨rBlk, k4_pay1 (View.ld x2 rOne) (View.ld x0 rBlk) (View.ld x1 rBlk) (View.ld x3 rW1) (View.ld x4 rB1) (View.ld x5 rW2) (View.ld x6 rB2)⟩]

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => out4_7 (iblk4 V c 0 t) (iblk4 V c 1 t) (iblk4 V c 2 t) (iblk4 V c 3 t) (iblk4 V c 4 t) (iblk4 V c 5 t) (iblk4 V c 6 t)
  Φ _ := Pipeline.ΦA spec4 c
  q _ := fullShare
  owed _ := 0

theorem A_eq4 (c : Dev nD) (w : Fin cfg4.W) : (dat4 V c).A w = V c (Pipeline.arrRef spec4 w) := rfl

theorem after4_7 (c : Dev nD) (t : Fin cfg4.N) :
    (dat4 V c).after 7 t = out4_7 (iblk4 V c 0 t) (iblk4 V c 1 t) (iblk4 V c 2 t) (iblk4 V c 3 t) (iblk4 V c 4 t) (iblk4 V c 5 t) (iblk4 V c 6 t) := by dsimp only [dat4]

-- The hypotheses h0 … h6 of sound_node for this region.
theorem before4 (c : Dev nD) (t : Fin cfg4.N) : ∀ w : Fin cfg4.W, w ≠ 7 → ∀ d, (dat4 V c).before w t d = (dat4 V c).after w t
  | ⟨0, _⟩, _, d | ⟨1, _⟩, _, d | ⟨2, _⟩, _, d | ⟨3, _⟩, _, d | ⟨4, _⟩, _, d | ⟨5, _⟩, _, d | ⟨6, _⟩, _, d =>
    (dat4 V c).before_in_eq_fetched _ rfl (fun _ => rfl) (fun _ _ _ => rfl) (fun _ => rfl) t d
  | ⟨7, _⟩, h, _ => absurd rfl h

theorem body_obligation4 (c : Dev nD) : BodyObligation (dat4 (F := F) V c) (defs₀ (F := F)) Variants.none () Set.univ := fun t => by
  rw [bigSep_W4, bigSep_W4]
  sl_whnfR [defs₀, Defs.onTc]
  rw [cc4__node_update_kernel_eq_skeleton]
  have hb := before4 V c t
  exact sound_node k4_pay1 c Set.univ (hb 0 (by decide)) (hb 1 (by decide)) (hb 2 (by decide)) (hb 3 (by decide)) (hb 4 (by decide)) (hb 5 (by decide)) (hb 6 (by decide)) (by dsimp only [dat4, out4_7])

end Cert.KernelIdeal.Hand

end
-- ==== Proof.KernelIdeal.Reg5.lean ====
import proofs.«404173_j463856468344_1_alg».proof.Proof.KernelIdeal.Reg1

noncomputable section

namespace Cert.KernelIdeal.Hand

open Cert.KernelIdeal Cert.KernelIdeal.Gen
open Idealize.ShloMosaic Idealize.ShloMosaic.TcCoe
open Idealize.SL Idealize.SL.RA
open Idealize.ShloMosaic.Pipeline (Dat BodyObligation)

variable {F : FTy → Type} [FloatOps F]

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def out5_4 (x0 : Vec F S8000x128 .f32) (x1 : Vec F S8000x16 .f32) (x2 : Vec F S16x128 .f32) (x3 : Vec F S1x128 .f32) : Vec F S8000x128 .f32 :=
  View.canon [⟨r1_x, k5_pay1 (View.ld x0 r1_x) (View.ld x1 r1_e) (View.ld x2 r1_w) (View.ld x3 r1_b)⟩]

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_4 (c : Dev nD) (t : Fin cfg5.N) :
    (dat5 V c).after 4 t = out5_4 (iblk5 V c 0 t) (iblk5 V c 1 t) (iblk5 V c 2 t) (iblk5 V c 3 t) := by dsimp only [dat5]

theorem body_obligation5 (c : Dev nD) : BodyObligation (dat5 (F := F) V c) (defs₀ (F := F)) Variants.none () Set.univ := fun t => by
  rw [bigSep_W5, bigSep_W5]
  refine edge_body (F := F) c rfl rfl (grid1.coords t) _ (hstage5_0 _) _ (hstage5_1 _) _ (hstage5_2 _) _ (hstage5_3 _) _ (hstage5_4 _)
    ?_ ?_ ?_ ?_ ?_ ?_ ?_ ?_ (after5_4 V c t)
  iterate 4 exact (dat5 V c).before_in_eq_fetched _ rfl (fun _ => rfl) (fun _ _ _ => rfl) (fun _ => rfl) t
  all_goals dsimp only [dat5]

end Cert.KernelIdeal.Hand

end
-- ==== Proof.KernelIdeal.Reg6.lean ====
import proofs.«404173_j463856468344_1_alg».proof.Proof.KernelIdeal.RegLibC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA
open Idealize.ShloMosaic.Pipeline (Dat BodyObligation)

variable {F : FTy → Type} [FloatOps F]

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def out6_7 (x0 : Vec F S2000x128 .f32) (x1 : Vec F S2000x128 .f32) (x2 : Vec F S1x1 .f32) (x3 : Vec F S128x256 .f32) (x4 : Vec F S1x256 .f32) (x5 : Vec F S256x128 .f32) (x6 : Vec F S1x128 .f32) : Vec F S2000x128 .f32 :=
  View.canon [⟨rBlk, k6_pay1 (View.ld x2 rOne) (View.ld x0 rBlk) (View.ld x1 rBlk) (View.ld x3 rW1) (View.ld x4 rB1) (View.ld x5 rW2) (View.ld x6 rB2)⟩]

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => out6_7 (iblk6 V c 0 t) (iblk6 V c 1 t) (iblk6 V c 2 t) (iblk6 V c 3 t) (iblk6 V c 4 t) (iblk6 V c 5 t) (iblk6 V c 6 t)
  Φ _ := Pipeline.ΦA spec6 c
  q _ := fullShare
  owed _ := 0

theorem A_eq6 (c : Dev nD) (w : Fin cfg6.W) : (dat6 V c).A w = V c (Pipeline.arrRef spec6 w) := rfl

theorem after6_7 (c : Dev nD) (t : Fin cfg6.N) :
    (dat6 V c).after 7 t = out6_7 (iblk6 V c 0 t) (iblk6 V c 1 t) (iblk6 V c 2 t) (iblk6 V c 3 t) (iblk6 V c 4 t) (iblk6 V c 5 t) (iblk6 V c 6 t) := by dsimp only [dat6]

-- The hypotheses h0 … h6 of sound_node for this region.
theorem before6 (c : Dev nD) (t : Fin cfg6.N) : ∀ w : Fin cfg6.W, w ≠ 7 → ∀ d, (dat6 V c).before w t d = (dat6 V c).after w t
  | ⟨0, _⟩, _, d | ⟨1, _⟩, _, d | ⟨2, _⟩, _, d | ⟨3, _⟩, _, d | ⟨4, _⟩, _, d | ⟨5, _⟩, _, d | ⟨6, _⟩, _, d =>
    (dat6 V c).before_in_eq_fetched _ rfl (fun _ => rfl) (fun _ _ _ => rfl) (fun _ => rfl) t d
  | ⟨7, _⟩, h, _ => absurd rfl h

theorem body_obligation6 (c : Dev nD) : BodyObligation (dat6 (F := F) V c) (defs₀ (F := F)) Variants.none () Set.univ := fun t => by
  rw [bigSep_W6, bigSep_W6]
  sl_whnfR [defs₀, Defs.onTc]
  rw [cc6__node_update_kernel_eq_skeleton]
  have hb := before6 V c t
  exact sound_node k6_pay1 c Set.univ (hb 0 (by decide)) (hb 1 (by decide)) (hb 2 (by decide)) (hb 3 (by decide)) (hb 4 (by decide)) (hb 5 (by decide)) (hb 6 (by decide)) (by dsimp only [dat6, out6_7])

end Cert.KernelIdeal.Hand

end
-- ==== Proof.KernelIdeal.Reg7.lean ====
import proofs.«404173_j463856468344_1_alg».proof.Proof.Gen.KernelIdeal.Launch
import proofs.«404173_j463856468344_1_alg».proof.Proof.Gen.KernelIdeal.Skeleton
import proofs.«404173_j463856468344_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev r7_x : Rect S2000x512 := Rect.unit (s := S2000x512) ![0, 0] S2000x512.size inb_S2000x512_S2000x512_0_0
abbrev r7_w : Rect S512x128 := Rect.unit (s := S512x128) ![0, 0] S512x128.size inb_S512x128_S512x128_0_0
abbrev r7_b : Rect S1x128 := Rect.unit (s := S1x128) ![0, 0] S1x128.size inb_S1x128_S1x128_0_0
abbrev r7_o : Rect S2000x128 := Rect.unit (s := S2000x128) ![0, 0] S2000x128.size inb_S2000x128_S2000x128_0_0

def out7_3 (x0 : Vec F S2000x512 .f32) (x1 : Vec F S512x128 .f32) (x2 : Vec F S1x128 .f32) : Vec F S2000x128 .f32 :=
  View.canon [⟨r7_o, k7_pay1 (View.ld x0 r7_x) (View.ld x1 r7_w) (View.ld x2 r7_b)⟩]

-- The body stores one function of the three blocks it reads over the whole output block.
theorem affine_body7 (c : Dev nD) {Φ O Φ' O' : sProp 𝕄} (hΦ : Φ = Φ') (hO : O = O') (i : grid7.Coords)
    (m0 : Memref sig .tc .vmem S2000x512 .f32) (h0 : m0.IsWhole) (m1 : Memref sig .tc .vmem S512x128 .f32) (h1 : m1.IsWhole)
    (m2 : Memref sig .tc .vmem S1x128 .f32) (h2 : m2.IsWhole) (m3 : Memref sig .tc .vmem S2000x128 .f32) (h3 : m3.IsWhole)
    {β0 β1 β2 β3 : Type} {b0 : β0 → Vec F S2000x512 .f32} {b1 : β1 → Vec F S512x128 .f32} {b2 : β2 → Vec F S1x128 .f32}
    {b3 : β3 → Vec F S2000x128 .f32} {x0 x1 x2 a0 a1 a2 a3} (e0 : ∀ d, b0 d = x0) (e1 : ∀ d, b1 d = x1) (e2 : ∀ d, b2 d = x2)
    (ha0 : a0 = x0) (ha1 : a1 = x1) (ha2 : a2 = x2) (ha3 : a3 = out7_3 x0 x1 x2) :
    iprop(Φ ∗ O ∗ (∃ d, owns (c : Thread nD τ) m0 fullShare (b0 d)) ∗ (∃ d, owns (c : Thread nD τ) m1 fullShare (b1 d))
        ∗ (∃ d, owns (c : Thread nD τ) m2 fullShare (b2 d)) ∗ (∃ d, owns (c : Thread nD τ) m3 fullShare (b3 d)))
      ⊢ wp frame (wpE (defs₀ (F := F)) Variants.none c none) Set.univ (cc7__affine_kernel i m0 h0 m1 h1 m2 h2 m3 h3) fun _ =>
        iprop(Φ' ∗ O' ∗ owns (c : Thread nD τ) m0 fullShare a0 ∗ owns (c : Thread nD τ) m1 fullShare a1 ∗ owns (c : Thread nD τ) m2 fullShare a2
          ∗ owns (c : Thread nD τ) m3 fullShare a3) := by
  subst hΦ hO ha0 ha1 ha2 ha3
  simp only [e0, e1, e2, cc7__affine_kernel_eq_skeleton]; unfold cc7__affine_kernel_skel owns
  iintro ⟨HΦ, Ho, ⟨%_, %f0, %hf0, H0⟩, ⟨%_, %f1, %hf1, H1⟩, ⟨%_, %f2, %hf2, H2⟩, ⟨%_, %f3, -, H3⟩⟩
  subst hf0 hf1 hf2
  sl_exec
  sl_step
  iframe HΦ Ho
  isplitl [H0]; · iexists f0; iframe H0; ipureintro; rfl
  isplitl [H1]; · iexists f1; iframe H1; ipureintro; rfl
  isplitl [H2]; · iexists f2; iframe H2; ipureintro; rfl
  iexists _; iframe H3; ipureintro
  exact View.read_writes_eq_canon _ _ _ (View.cover_of_tiled _ S2000x128.size (by rfl))

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_3 (c : Dev nD) (t : Fin cfg7.N) :
    (dat7 V c).after 3 t = out7_3 (iblk7 V c 0 t) (iblk7 V c 1 t) (iblk7 V c 2 t) := by dsimp only [dat7]

theorem body_obligation7 (c : Dev nD) : BodyObligation (dat7 (F := F) V c) (defs₀ (F := F)) Variants.none () Set.univ := fun t => by
  rw [bigSep_W7, bigSep_W7]
  refine affine_body7 (F := F) c rfl rfl (grid7.coords t) _ (hstage7_0 _) _ (hstage7_1 _) _ (hstage7_2 _) _ (hstage7_3 _)
    ?_ ?_ ?_ ?_ ?_ ?_ (after7_3 V c t)
  iterate 3 exact (dat7 V c).before_in_eq_fetched _ rfl (fun _ => rfl) (fun _ _ _ => rfl) (fun _ => rfl) t
  all_goals dsimp only [dat7]

end Cert.KernelIdeal.Hand

end
-- ==== Proof.KernelIdeal.Chain.lean ====
import proofs.«404173_j463856468344_1_alg».proof.Proof.KernelIdeal.Reg0
import proofs.«404173_j463856468344_1_alg».proof.Proof.KernelIdeal.Reg1
import proofs.«404173_j463856468344_1_alg».proof.Proof.KernelIdeal.Reg2
import proofs.«404173_j463856468344_1_alg».proof.Proof.KernelIdeal.Reg3
import proofs.«404173_j463856468344_1_alg».proof.Proof.KernelIdeal.Reg4
import proofs.«404173_j463856468344_1_alg».proof.Proof.KernelIdeal.Reg5
import proofs.«404173_j463856468344_1_alg».proof.Proof.KernelIdeal.Reg6
import proofs.«404173_j463856468344_1_alg».proof.Proof.KernelIdeal.Reg7
import proofs.«404173_j463856468344_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

abbrev atTc (W : Dev nD → Valuation τ sig (Elt F)) : (c : Dev nD) → (b : Ref sig .tc) → Buf (Elt F) ((c : Thread nD τ).loc b) :=
  fun c b => W c b

def X1 (c : Dev nD) : Valuation τ sig (Elt F) := V1 m c

def X2 (c : Dev nD) : Valuation τ sig (Elt F) := Function.update (X1 m c) main_v5 ((dat0 (atTc (X1 m)) c).arrAt 3 cfg0.N)

def X3 (c : Dev nD) : Valuation τ sig (Elt F) := StableHlo.after hostOps1 (X2 m c)
def X4 (c : Dev nD) : Valuation τ sig (Elt F) := StableHlo.after hostOps1_1 (X3 m c)

def X5 (c : Dev nD) : Valuation τ sig (Elt F) := Function.update (X4 m c) main_v12 ((dat1 (atTc (X4 m)) c).arrAt 4 cfg1.N)

def X6 (c : Dev nD) : Valuation τ sig (Elt F) := StableHlo.after hostOps2 (X5 m c)

def X7 (c : Dev nD) : Valuation τ sig (Elt F) := Function.update (X6 m c) main_v29 ((dat2 (atTc (X6 m)) c).arrAt 7 cfg2.N)
def X8 (c : Dev nD) : Valuation τ sig (Elt F) := StableHlo.after hostOps3 (X7 m c)
def X9 (c : Dev nD) : Valuation τ sig (Elt F) := StableHlo.after hostOps3_1 (X8 m c)

def X10 (c : Dev nD) : Valuation τ sig (Elt F) := Function.update (X9 m c) main_v36 ((dat3 (atTc (X9 m)) c).arrAt 4 cfg3.N)
def X11 (c : Dev nD) : Valuation τ sig (Elt F) := StableHlo.after hostOps4 (X10 m c)

def X12 (c : Dev nD) : Valuation τ sig (Elt F) := Function.update (X11 m c) main_v53 ((dat4 (atTc (X11 m)) c).arrAt 7 cfg4.N)
def X13 (c : Dev nD) : Valuation τ sig (Elt F) := StableHlo.after hostOps5 (X12 m c)
def X14 (c : Dev nD) : Valuation τ sig (Elt F) := StableHlo.after hostOps5_1 (X13 m c)

def X15 (c : Dev nD) : Valuation τ sig (Elt F) := Function.update (X14 m c) main_v60 ((dat5 (atTc (X14 m)) c).arrAt 4 cfg5.N)
def X16 (c : Dev nD) : Valuation τ sig (Elt F) := StableHlo.after hostOps6 (X15 m c)

def X17 (c : Dev nD) : Valuation τ sig (Elt F) := Function.update (X16 m c) main_v77 ((dat6 (atTc (X16 m)) c).arrAt 7 cfg6.N)

def X18 (c : Dev nD) : Valuation τ sig (Elt F) := StableHlo.after hostOps7 (X17 m c)

def X19 (c : Dev nD) : Valuation τ sig (Elt F) := Function.update (X18 m c) main_v80 ((dat7 (atTc (X18 m)) c).arrAt 3 cfg7.N)

def outs : Outs (F := F) := fun J r c =>
  match J with
  | 2 => X2 m c r
  | 5 => X5 m c r
  | 7 => X7 m c r
  | 10 => X10 m c r
  | 12 => X12 m c r
  | 15 => X15 m c r
  | 17 => X17 m c r
  | _ => X19 m c r

theorem V1_eq (c : Dev nD) : V1 m c = X1 m c := rfl
theorem V2_eq (c : Dev nD) : V2 m (outs m) c = X2 m c := by
  show Function.update (V1 m c) _ (X2 m c _) = X2 m c
  unfold X2 X1; rw [Function.update_self]
theorem V3_eq (c : Dev nD) : V3 m (outs m) c = X3 m c := by
  show StableHlo.after hostOps1 (V2 m (outs m) c) = _; rw [V2_eq]; rfl
theorem V4_eq (c : Dev nD) : V4 m (outs m) c = X4 m c := by
  show StableHlo.after hostOps1_1 (V3 m (outs m) c) = _; rw [V3_eq]; rfl
theorem V5_eq (c : Dev nD) : V5 m (outs m) c = X5 m c := by
  show Function.update (V4 m (outs m) c) _ (X5 m c _) = X5 m c
  rw [V4_eq]; unfold X5; rw [Function.update_self]
theorem V6_eq (c : Dev nD) : V6 m (outs m) c = X6 m c := by
  show StableHlo.after hostOps2 (V5 m (outs m) c) = _; rw [V5_eq]; rfl
theorem V7_eq (c : Dev nD) : V7 m (outs m) c = X7 m c := by
  show Function.update (V6 m (outs m) c) _ (X7 m c _) = X7 m c
  rw [V6_eq]; unfold X7; rw [Function.update_self]
theorem V8_eq (c : Dev nD) : V8 m (outs m) c = X8 m c := by
  show StableHlo.after hostOps3 (V7 m (outs m) c) = _; rw [V7_eq]; rfl
theorem V9_eq (c : Dev nD) : V9 m (outs m) c = X9 m c := by
  show StableHlo.after hostOps3_1 (V8 m (outs m) c) = _; rw [V8_eq]; rfl
theorem V10_eq (c : Dev nD) : V10 m (outs m) c = X10 m c := by
  show Function.update (V9 m (outs m) c) _ (X10 m c _) = X10 m c
  rw [V9_eq]; unfold X10; rw [Function.update_self]
theorem V11_eq (c : Dev nD) : V11 m (outs m) c = X11 m c := by
  show StableHlo.after hostOps4 (V10 m (outs m) c) = _; rw [V10_eq]; rfl
theorem V12_eq (c : Dev nD) : V12 m (outs m) c = X12 m c := by
  show Function.update (V11 m (outs m) c) _ (X12 m c _) = X12 m c
  rw [V11_eq]; unfold X12; rw [Function.update_self]
theorem V13_eq (c : Dev nD) : V13 m (outs m) c = X13 m c := by
  show StableHlo.after hostOps5 (V12 m (outs m) c) = _; rw [V12_eq]; rfl
theorem V14_eq (c : Dev nD) : V14 m (outs m) c = X14 m c := by
  show StableHlo.after hostOps5_1 (V13 m (outs m) c) = _; rw [V13_eq]; rfl
theorem V15_eq (c : Dev nD) : V15 m (outs m) c = X15 m c := by
  show Function.update (V14 m (outs m) c) _ (X15 m c _) = X15 m c
  rw [V14_eq]; unfold X15; rw [Function.update_self]
theorem V16_eq (c : Dev nD) : V16 m (outs m) c = X16 m c := by
  show StableHlo.after hostOps6 (V15 m (outs m) c) = _; rw [V15_eq]; rfl
theorem V17_eq (c : Dev nD) : V17 m (outs m) c = X17 m c := by
  show Function.update (V16 m (outs m) c) _ (X17 m c _) = X17 m c
  rw [V16_eq]; unfold X17; rw [Function.update_self]
theorem V18_eq (c : Dev nD) : V18 m (outs m) c = X18 m c := by
  show StableHlo.after hostOps7 (V17 m (outs m) c) = _; rw [V17_eq]; rfl
theorem V19_eq (c : Dev nD) : V19 m (outs m) c = X19 m c := by
  show Function.update (V18 m (outs m) c) _ (X19 m c _) = X19 m c
  rw [V18_eq]; unfold X19; rw [Function.update_self]

end Cert.KernelIdeal.Hand

end
-- ==== Proof.KernelIdeal.ChainTable.lean ====
import proofs.«404173_j463856468344_1_alg».proof.Proof.KernelIdeal.Chain

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

theorem X2_out (c : Dev nD) : X2 m c main_v5 = (dat0 (atTc (X1 m)) c).arrAt 3 cfg0.N := by
  unfold X2; exact Function.update_self _ _ _
theorem X2_of_ne (c : Dev nD) (b : Ref sig .tc) (h : b ≠ main_v5) : X2 m c b = X1 m c b := by
  unfold X2; exact Function.update_of_ne (StableHlo.devRef_ne_of_ne h) _ _

theorem X5_out (c : Dev nD) : X5 m c main_v12 = (dat1 (atTc (X4 m)) c).arrAt 4 cfg1.N := by
  unfold X5; exact Function.update_self _ _ _
theorem X5_of_ne (c : Dev nD) (b : Ref sig .tc) (h : b ≠ main_v12) : X5 m c b = X4 m c b := by
  unfold X5; exact Function.update_of_ne (StableHlo.devRef_ne_of_ne h) _ _

theorem X7_out (c : Dev nD) : X7 m c main_v29 = (dat2 (atTc (X6 m)) c).arrAt 7 cfg2.N := by
  unfold X7; exact Function.update_self _ _ _
theorem X7_of_ne (c : Dev nD) (b : Ref sig .tc) (h : b ≠ main_v29) : X7 m c b = X6 m c b := by
  unfold X7; exact Function.update_of_ne (StableHlo.devRef_ne_of_ne h) _ _

theorem X10_out (c : Dev nD) : X10 m c main_v36 = (dat3 (atTc (X9 m)) c).arrAt 4 cfg3.N := by
  unfold X10; exact Function.update_self _ _ _
theorem X10_of_ne (c : Dev nD) (b : Ref sig .tc) (h : b ≠ main_v36) : X10 m c b = X9 m c b := by
  unfold X10; exact Function.update_of_ne (StableHlo.devRef_ne_of_ne h) _ _

theorem X12_out (c : Dev nD) : X12 m c main_v53 = (dat4 (atTc (X11 m)) c).arrAt 7 cfg4.N := by
  unfold X12; exact Function.update_self _ _ _
theorem X12_of_ne (c : Dev nD) (b : Ref sig .tc) (h : b ≠ main_v53) : X12 m c b = X11 m c b := by
  unfold X12; exact Function.update_of_ne (StableHlo.devRef_ne_of_ne h) _ _

theorem X15_out (c : Dev nD) : X15 m c main_v60 = (dat5 (atTc (X14 m)) c).arrAt 4 cfg5.N := by
  unfold X15; exact Function.update_self _ _ _
theorem X15_of_ne (c : Dev nD) (b : Ref sig .tc) (h : b ≠ main_v60) : X15 m c b = X14 m c b := by
  unfold X15; exact Function.update_of_ne (StableHlo.devRef_ne_of_ne h) _ _

theorem X17_out (c : Dev nD) : X17 m c main_v77 = (dat6 (atTc (X16 m)) c).arrAt 7 cfg6.N := by
  unfold X17; exact Function.update_self _ _ _
theorem X17_of_ne (c : Dev nD) (b : Ref sig .tc) (h : b ≠ main_v77) : X17 m c b = X16 m c b := by
  unfold X17; exact Function.update_of_ne (StableHlo.devRef_ne_of_ne h) _ _

theorem X19_out (c : Dev nD) : X19 m c main_v80 = (dat7 (atTc (X18 m)) c).arrAt 3 cfg7.N := by
  unfold X19; exact Function.update_self _ _ _
theorem X19_of_ne (c : Dev nD) (b : Ref sig .tc) (h : b ≠ main_v80) : X19 m c b = X18 m c b := by
  unfold X19; exact Function.update_of_ne (StableHlo.devRef_ne_of_ne h) _ _

def pdats : (p : Fin 8) → (c : Dev nD) → Dat τ (Elt F) Unit ℕ (UR sig nD τ) ℕ (cfgs p) c
  | ⟨0, _⟩ => fun c => dat0 (atTc (X1 m)) c
  | ⟨1, _⟩ => fun c => dat1 (atTc (X4 m)) c
  | ⟨2, _⟩ => fun c => dat2 (atTc (X6 m)) c
  | ⟨3, _⟩ => fun c => dat3 (atTc (X9 m)) c
  | ⟨4, _⟩ => fun c => dat4 (atTc (X11 m)) c
  | ⟨5, _⟩ => fun c => dat5 (atTc (X14 m)) c
  | ⟨6, _⟩ => fun c => dat6 (atTc (X16 m)) c
  | ⟨7, _⟩ => fun c => dat7 (atTc (X18 m)) c

end Cert.KernelIdeal.Hand

end
-- ==== Proof.KernelIdeal.SegBase.lean ====
import proofs.«404173_j463856468344_1_alg».proof.Proof.KernelIdeal.ChainTable
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev 𝒱z : Variants := Variants.none
abbrev Lz : GSem nD τ sig → Finset Unit := fun _ => ∅
abbrev lvz : GSem nD τ sig → Unit → ℕ := fun _ _ => 0
abbrev Rest (c : Dev nD) : sProp 𝕄 := iprop((∃ r, prngReg c r) ∗ ∃ W, owes (c : Thread nD τ) (0 : CellTallies nD τ sig Unit) W)

-- Region p as a segment from the thread state at valuation V to the one at V', where V' is V updated at window o's array.
def regSeg (p : Fin 8) (kit : Pipeline.LaunchFacts (nD := nD) (τ := τ) cfgs p)
    (pd : (p : Fin 8) → (c : Dev nD) → Dat τ (Elt F) Unit ℕ (UR sig nD τ) ℕ (cfgs p) c)
    (V V' : Dev nD → Valuation τ sig (Elt F)) (o : Fin (cfgs p).W)
    (hbody : ∀ c, BodyObligation (pd p c) (defs₀ (F := F)) Variants.none () Set.univ)
    (hout : ∀ c, V' c (Pipeline.arrRef (cfgs p).spec o) = (pd p c).arrAt o (cfgs p).N)
    (hne : ∀ c (b : Ref sig .tc), b ≠ Pipeline.arrRef (cfgs p).spec o → V' c b = V c b)
    (hin : ∀ w, w ≠ o → ((cfgs p).win w).isOut = false := by decide)
    (hA : ∀ c w, (pd p c).A w = V c (Pipeline.arrRef (cfgs p).spec w) := by intros; rfl)
    (hΦ : ∀ c t, (pd p c).Φ t = Pipeline.ΦA (cfgs p).spec c := by intros; rfl)
    (hq : ∀ c w, (pd p c).q w = fullShare := by intros; rfl)
    (howed : ∀ c t, (pd p c).owed t = 0 := by intros; rfl)
    (hrec : ∀ c, (pd p c).recorded 0 = Set.univ := by intros; rfl) :
    Pipeline.RegionSeg (pcfgs (F := F)) adm pd () defs₀ 𝒱z Lz lvz p where
  win := kit.win.to₀
  block_pos := kit.block_pos
  stage_whole := kit.stage_whole
  K := PEmpty
  osem k := k.elim
  ho := Pipeline.OwnSemFacts.none _
  hbody c := (hbody c).loose
  hwaits := Pipeline.hwaits_of_owed_zero _ _ _ _ Lz lvz p howed
  pre c := iprop(StableHlo.held (c : Thread nD τ) (Pipeline.ucRefs τ sig) (V c) ∗ Rest c)
  post c := iprop(StableHlo.held (c : Thread nD τ) (Pipeline.ucRefs τ sig) (V' c) ∗ Rest c)
  X c := iprop(∃ r, prngReg c r)
  Y c := iprop(∃ r, prngReg c r)
  Z c := Pipeline.unscopedRest (cfgs p).spec c (atTc V c)
  hentry c := by
    unfold Pipeline.Dat.owesAt Pipeline.owesWithin
    rw [Pipeline.ownSems0_none, howed]
    have hsplit := Pipeline.arrays_of_unscopedBufs (p := p) pcfgs adm pd kit.win kit.arr_whole c
      ((pd p c).share_full (hq c)) (atTc V c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl (by rw [hrec]; trivial)
      iexact HO
    isplitl [Hp]; · iexact Hp
    iexact Hrest
  hin c := by
    rw [hΦ]; unfold Pipeline.ΦA
    iintro ⟨Hp, -, Hr⟩
    isplitl [Hr]; · iexact Hr
    iexact Hp
  hout c := by
    rw [Pipeline.ownSems0_none, hΦ]; unfold Pipeline.ΦA
    iintro ⟨Hr, Hp⟩
    isplitl [Hp]; · iexact Hp
    isplitr; · iempintro
    iexact Hr
  hexit c := by
    unfold Pipeline.Dat.owesAt Pipeline.owesWithin
    rw [howed]
    have hjoin := Pipeline.unscopedBufs_of_arrays (p := p) pcfgs adm kit.win kit.arr_whole c pd ((pd p c).share_full (hq c))
      (atTc V c) (atTc V' c) ((pd p c).arrAt · (cfgs p).N)
      (fun w => by
        by_cases hw : w = o
        · subst hw; exact (hout c).symm
        · exact (((pd p c).arrAt_in w (hin w hw) _).trans (hA c w)).trans (hne c _ fun e => hw (kit.win.arr_inj e)).symm)
      (fun b hb => hne c b fun e => hb (Finset.mem_image.mpr ⟨o, Finset.mem_univ _, e.symm⟩))
    rw [Pipeline.unscopedBufs_held] at hjoin
    iintro ⟨Ha, HO, HY, Hrest⟩
    imodintro
    isplitl [Ha Hrest]
    · iapply hjoin; isplitl [Ha] <;> iassumption
    isplitl [HY]; · iexact HY
    icases HO with ⟨%W, -, HO⟩; iexists W; iexact HO

end Cert.KernelIdeal.Hand

end
-- ==== Proof.KernelIdeal.Segs.lean ====
import proofs.«404173_j463856468344_1_alg».proof.Proof.KernelIdeal.SegBase

noncomputable section

namespace Cert.KernelIdeal.Hand

open Cert.KernelIdeal Cert.KernelIdeal.Gen
open Idealize.ShloMosaic

variable {F : FTy → Type} [FloatOps F] (m : (ℓ : Loc nD τ sig) → Buf (Elt F) ℓ)

def reg0 : Pipeline.RegionSeg (pcfgs (F := F)) adm (pdats m) () defs₀ 𝒱z Lz lvz 0 :=
  regSeg 0 launch0 (pdats m) (X1 m) (X2 m) 3 (body_obligation0 _) (X2_out m) (X2_of_ne m)

def reg1 : Pipeline.RegionSeg (pcfgs (F := F)) adm (pdats m) () defs₀ 𝒱z Lz lvz 1 :=
  regSeg 1 launch1 (pdats m) (X4 m) (X5 m) 4 (body_obligation1 _) (X5_out m) (X5_of_ne m)

def reg2 : Pipeline.RegionSeg (pcfgs (F := F)) adm (pdats m) () defs₀ 𝒱z Lz lvz 2 :=
  regSeg 2 launch2 (pdats m) (X6 m) (X7 m) 7 (body_obligation2 _) (X7_out m) (X7_of_ne m)

def reg3 : Pipeline.RegionSeg (pcfgs (F := F)) adm (pdats m) () defs₀ 𝒱z Lz lvz 3 :=
  regSeg 3 launch3 (pdats m) (X9 m) (X10 m) 4 (body_obligation3 _) (X10_out m) (X10_of_ne m)

def reg4 : Pipeline.RegionSeg (pcfgs (F := F)) adm (pdats m) () defs₀ 𝒱z Lz lvz 4 :=
  regSeg 4 launch4 (pdats m) (X11 m) (X12 m) 7 (body_obligation4 _) (X12_out m) (X12_of_ne m)

def reg5 : Pipeline.RegionSeg (pcfgs (F := F)) adm (pdats m) () defs₀ 𝒱z Lz lvz 5 :=
  regSeg 5 launch5 (pdats m) (X14 m) (X15 m) 4 (body_obligation5 _) (X15_out m) (X15_of_ne m)

def reg6 : Pipeline.RegionSeg (pcfgs (F := F)) adm (pdats m) () defs₀ 𝒱z Lz lvz 6 :=
  regSeg 6 launch6 (pdats m) (X16 m) (X17 m) 7 (body_obligation6 _) (X17_out m) (X17_of_ne m)

def reg7 : Pipeline.RegionSeg (pcfgs (F := F)) adm (pdats m) () defs₀ 𝒱z Lz lvz 7 :=
  regSeg 7 launch7 (pdats m) (X18 m) (X19 m) 3 (body_obligation7 _) (X19_out m) (X19_of_ne m)

end Cert.KernelIdeal.Hand

end
-- ==== Proof.KernelIdeal.Frame.lean ====
import proofs.«404173_j463856468344_1_alg».proof.Proof.KernelIdeal.Segs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem launch_own : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem rest_init : iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ (iprop(emp) : sProp 𝕄))) ∗ levAts Lz lvz)
    ⊢ (|={Set.univ}=> bigSep Finset.univ (fun c : Dev nD => Rest (F := F) c) : sProp 𝕄) := by
  have hc : ∀ c : Dev nD, (iprop(unscopedSems0 c ∗ owes (c : Thread nD τ) ((0 : Dev nD → CellTallies nD τ sig Unit) c) ∅
      ∗ Pipeline.launchCred (0 : Dev nD → CellTallies nD τ sig Unit) c ∗ prngReg c (ρ c) ∗ (iprop(emp) : sProp 𝕄)) : sProp 𝕄) ⊢ Rest (F := F) c := fun c => by
    iintro ⟨-, HO, -, Hp, -⟩
    isplitl [Hp]; · iexists _; iexact Hp
    iexists ∅; iexact HO
  have hb : (bigSep Finset.univ fun c : Dev nD => (iprop(unscopedSems0 c ∗ owes (c : Thread nD τ) ((0 : Dev nD → CellTallies nD τ sig Unit) c) ∅
      ∗ Pipeline.launchCred (0 : Dev nD → CellTallies nD τ sig Unit) c ∗ prngReg c (ρ c) ∗ (iprop(emp) : sProp 𝕄)) : sProp 𝕄))
      ⊢ bigSep Finset.univ (fun c : Dev nD => Rest (F := F) c) := bigSep_mono fun c _ => hc c
  iintro ⟨H, -⟩
  imodintro
  iapply hb
  iexact H

theorem rest_end (c : Dev nD) : (Rest (F := F) c : sProp 𝕄) ⊢ iprop(∃ W, owes (c : Thread nD τ) (0 : CellTallies nD τ sig Unit) W) := by
  iintro ⟨-, H⟩; iexact H

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_cond (F := F) m emb₁ () 𝒱z Lz lvz (fun _ _ => rfl) ρ (outs m) (pdats m) 0 (fun _ => iprop(emp))
    (initOf (Pipeline.cells cfgs cellOf_inj) (Pipeline.launchToks cfgs cellOf_inj)) launch_own (fun _ c => Rest c) (rest_init ρ) (fun c => rest_end c)
    (reg0 m) (fun c => by rw [V1_eq]; exact .rfl) (fun c => by rw [V2_eq]; exact .rfl)
    (reg1 m) (fun c => by rw [V4_eq]; exact .rfl) (fun c => by rw [V5_eq]; exact .rfl)
    (reg2 m) (fun c => by rw [V6_eq]; exact .rfl) (fun c => by rw [V7_eq]; exact .rfl)
    (reg3 m) (fun c => by rw [V9_eq]; exact .rfl) (fun c => by rw [V10_eq]; exact .rfl)
    (reg4 m) (fun c => by rw [V11_eq]; exact .rfl) (fun c => by rw [V12_eq]; exact .rfl)
    (reg5 m) (fun c => by rw [V14_eq]; exact .rfl) (fun c => by rw [V15_eq]; exact .rfl)
    (reg6 m) (fun c => by rw [V16_eq]; exact .rfl) (fun c => by rw [V17_eq]; exact .rfl)
    (reg7 m) (fun c => by rw [V18_eq]; exact .rfl) (fun c => by rw [V19_eq]; exact .rfl)

end Cert.KernelIdeal.Hand

end
-- ==== Proof.KernelIdeal.Run.lean ====
import proofs.«404173_j463856468344_1_alg».proof.Proof.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

section Cond

variable (m : (ℓ : Loc nD τ sig) → Buf (Elt F) ℓ)

set_option backward.isDefEq.respectTransparency.types false in

theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 8) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 9 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE8 : ∀ c : Dev nD, E 8 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V4 m outs c) ∗ E 1 c) ⊢ R1.pre c)
    (hpost1 : ∀ c : Dev nD, R1.post c ⊢ iprop(StableHlo.held (c : Thread nD τ) (Pipeline.ucRefs τ sig) (V5 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V6 m outs c) ∗ E 2 c) ⊢ R2.pre c)
    (hpost2 : ∀ c : Dev nD, R2.post c ⊢ iprop(StableHlo.held (c : Thread nD τ) (Pipeline.ucRefs τ sig) (V7 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V9 m outs c) ∗ E 3 c) ⊢ R3.pre c)
    (hpost3 : ∀ c : Dev nD, R3.post c ⊢ iprop(StableHlo.held (c : Thread nD τ) (Pipeline.ucRefs τ sig) (V10 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V11 m outs c) ∗ E 4 c) ⊢ R4.pre c)
    (hpost4 : ∀ c : Dev nD, R4.post c ⊢ iprop(StableHlo.held (c : Thread nD τ) (Pipeline.ucRefs τ sig) (V12 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V14 m outs c) ∗ E 5 c) ⊢ R5.pre c)
    (hpost5 : ∀ c : Dev nD, R5.post c ⊢ iprop(StableHlo.held (c : Thread nD τ) (Pipeline.ucRefs τ sig) (V15 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V16 m outs c) ∗ E 6 c) ⊢ R6.pre c)
    (hpost6 : ∀ c : Dev nD, R6.post c ⊢ iprop(StableHlo.held (c : Thread nD τ) (Pipeline.ucRefs τ sig) (V17 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V18 m outs c) ∗ E 7 c) ⊢ R7.pre c)
    (hpost7 : ∀ c : Dev nD, R7.post c ⊢ iprop(StableHlo.held (c : Thread nD τ) (Pipeline.ucRefs τ sig) (V19 m outs c) ∗ E 8 c)) :
    θ_run defs (onTc (τ := τ) (main (F := F))) ⟨m, fun _ => 0, ρ⟩ (fun r => ∀ c : Dev nD, ∀ b ∈ Pipeline.ucRefs τ sig,
      r.2.mem ((c : Thread nD τ).1, b) = V19 m outs c b) := by
  refine Pipeline.θ_run_regions_kit_dev (pcfgs (F := F)) adm pdats ι cellOf_inj EP defs₀ 𝒱₀ L lv m ρ main
    (segs m outs 𝒱₀ L lv E ι pdats R0 R1 R2 R3 R4 R5 R6 R7)
    (fun c Q => by
      rewrite [main_chain c, Seg.run_eq_chain,
        show (segs m outs 𝒱₀ L lv E ι pdats R0 R1 R2 R3 R4 R5 R6 R7 c).map Seg.prog = [
          StableHlo.seq hostOps0,
          Prog.lift (.customCall (Pipeline.entry 0) ()),
          StableHlo.seq hostOps1,
          StableHlo.seq hostOps1_1,
          Prog.lift (.customCall (Pipeline.entry 1) ()),
          StableHlo.seq hostOps2,
          Prog.lift (.customCall (Pipeline.entry 2) ()),
          StableHlo.seq hostOps3,
          StableHlo.seq hostOps3_1,
          Prog.lift (.customCall (Pipeline.entry 3) ()),
          StableHlo.seq hostOps4,
          Prog.lift (.customCall (Pipeline.entry 4) ()),
          StableHlo.seq hostOps5,
          StableHlo.seq hostOps5_1,
          Prog.lift (.customCall (Pipeline.entry 5) ()),
          StableHlo.seq hostOps6,
          Prog.lift (.customCall (Pipeline.entry 6) ()),
          StableHlo.seq hostOps7,
          Prog.lift (.customCall (Pipeline.entry 7) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V19 m outs c))
    (hch := fun c => ⟨.rfl, hpre0 c, hpost0 c, .rfl, hpre1 c, hpost1 c, hpre2 c, hpost2 c, .rfl, hpre3 c, hpost3 c, hpre4 c, hpost4 c, .rfl, hpre5 c, hpost5 c, hpre6 c, hpost6 c, hpre7 c, (hpost7 c).trans (sep_mono .rfl (hE8 c))⟩)
    (hinit := ?_) (QY := fun c s => ∀ b ∈ Pipeline.ucRefs τ sig, s.mem ((c : Thread nD τ).1, b) = V19 m outs c b)
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  ·
    unfold StableHlo.held
    iintro ⟨Hh, HSI⟩
    ihave Hr := (pointsTo_read_all (Pipeline.ucRefs τ sig) (fun b => ((c : Thread nD τ).1, b)) (V19 m outs c) s') $$ [Hh HSI]
    · isplitl [Hh] <;> iassumption
    icases Hr with ⟨%h, HSI⟩
    imodintro
    isplitr
    · ipureintro
      exact h
    · iexact HSI

end Cond

variable (m : (ℓ : Loc nD τ sig) → Buf (Elt F) ℓ) (ρ : Dev nD → PrngReg)

theorem run_all : θ_run defs (onTc (τ := τ) (main (F := F))) ⟨m, fun _ => 0, ρ⟩ (fun r => ∀ c : Dev nD, ∀ b ∈ Pipeline.ucRefs τ sig,
    r.2.mem ((c : Thread nD τ).1, b) = X19 m c b) := by
  have h := run_cond (F := F) m emb₁ () 𝒱z Lz lvz (fun _ _ => rfl) ρ (outs m) (pdats m) 0 (fun _ => iprop(emp))
    (initOf (Pipeline.cells cfgs cellOf_inj) (Pipeline.launchToks cfgs cellOf_inj)) launch_own (fun _ c => Rest c) (rest_init ρ) (fun c => rest_end c)
    (reg0 m) (fun c => by rw [V1_eq]; exact .rfl) (fun c => by rw [V2_eq]; exact .rfl)
    (reg1 m) (fun c => by rw [V4_eq]; exact .rfl) (fun c => by rw [V5_eq]; exact .rfl)
    (reg2 m) (fun c => by rw [V6_eq]; exact .rfl) (fun c => by rw [V7_eq]; exact .rfl)
    (reg3 m) (fun c => by rw [V9_eq]; exact .rfl) (fun c => by rw [V10_eq]; exact .rfl)
    (reg4 m) (fun c => by rw [V11_eq]; exact .rfl) (fun c => by rw [V12_eq]; exact .rfl)
    (reg5 m) (fun c => by rw [V14_eq]; exact .rfl) (fun c => by rw [V15_eq]; exact .rfl)
    (reg6 m) (fun c => by rw [V16_eq]; exact .rfl) (fun c => by rw [V17_eq]; exact .rfl)
    (reg7 m) (fun c => by rw [V18_eq]; exact .rfl) (fun c => by rw [V19_eq]; exact .rfl)
  exact (θ_run defs _ _).mono (fun r h c b hb => (h c b hb).trans (congrFun (V19_eq m c) b)) h

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem run_result : θ_run defs (onTc (τ := τ) (main (F := F))) ⟨m, fun _ => 0, ρ⟩ (fun r => ∀ c : Dev nD,
      r.2.mem ((c.tc : Thread nD τ).loc main_v80) = X19 m c main_v80
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    have k : ∀ b : Ref sig .tc, ¬ (Proc.devRef .tc b : DevRef τ sig).isScoped → V19 m (outs m) c b = m ((c.tc : Thread nD τ).loc b) →
        r.2.mem ((c.tc : Thread nD τ).loc b) = m ((c.tc : Thread nD τ).loc b) :=
      fun b hb hv => ((h c _ (mem_uc b hb)).trans (congrFun (V19_eq m c).symm _)).trans hv
    ⟨h c _ (mem_uc main_v80 (by decide)),
      k _ (by decide) (V19_main_arg0 m (outs m) c), k _ (by decide) (V19_main_arg1 m (outs m) c),
      k _ (by decide) (V19_main_arg2 m (outs m) c), k _ (by decide) (V19_main_arg3 m (outs m) c),
      k _ (by decide) (V19_main_arg4 m (outs m) c), k _ (by decide) (V19_main_arg5 m (outs m) c),
      k _ (by decide) (V19_main_arg6 m (outs m) c), k _ (by decide) (V19_main_arg7 m (outs m) c),
      k _ (by decide) (V19_main_arg8 m (outs m) c), k _ (by decide) (V19_main_arg9 m (outs m) c),
      k _ (by decide) (V19_main_arg10 m (outs m) c), k _ (by decide) (V19_main_arg11 m (outs m) c),
      k _ (by decide) (V19_main_arg12 m (outs m) c), k _ (by decide) (V19_main_arg13 m (outs m) c)⟩) (run_all m ρ)

end Cert.KernelIdeal.Hand

end
-- ==== Proof.PlainDot.lean ====
import Idealize.ShloMosaic.Lib.StackMember

noncomputable section

namespace Cert.Hand.PlainDot

open Idealize.ShloMosaic Idealize.ShloMosaic.ValueIdx

variable {M K N : ℕ} {φ₁ φ₂ : FTy}

-- A rows-by-columns product of the host, at an entry, is the sum over the contracted axis.
theorem dotGeneral_apply (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (i : Fin M) (j : Fin N) :
    Host.dotGeneral d none l r (ix2 i j) = ∑ k : Fin K, l (ix2 i k) * r (ix2 k j) := by
  subst hd; exact StackMember.dotGeneral_plain_apply none l r i j

-- A kernel's product into a zero accumulator likewise.
theorem matmul_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (i : Fin M) (j : Fin N) :
    matmul (F := Ideal) d prec l r (constant (F := Ideal) ⟨2, ![M, N]⟩ .f32 0x00000000#32) (ix2 i j)
      = ∑ k : Fin K, l (ix2 i k) * r (ix2 k j) := by
  subst hd
  exact (congrFun (matmul_zero_eq_dotGeneral _ prec l r) _).trans (StackMember.dotGeneral_plain_apply prec l r i j)

end Cert.Hand.PlainDot

end
-- ==== Proof.KernelIdeal.ValLibD.lean ====
import proofs.«404173_j463856468344_1_alg».proof.Proof.Gen.KernelIdeal.Skeleton
import proofs.«404173_j463856468344_1_alg».proof.Proof.PlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand.ValD

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat Cfg Window)

theorem hz : (![0, 0] : Fin 2 → Nat) = fun _ => 0 := funext fun a => by fin_cases a <;> rfl

-- a block element's place in its array, from the block index on each axis
theorem emb_ix2 {R C m n : Nat} {e : (⟨2, ![m, n]⟩ : Shape).Idx → (⟨2, ![R, C]⟩ : Shape).Idx} {I : Fin 2 → Nat}
    (E : ∀ y (a : Fin 2), (e y a : Nat) = I a * (![m, n] : Fin 2 → Nat) a + y a) {i j : Nat} (h : I 0 = i ∧ I 1 = j)
    (p : Fin m) (q : Fin n) (r : Fin R) (s : Fin C) (hr : r.val = i * m + p.val) (hs : s.val = j * n + q.val) : e (ix2 p q) = ix2 r s :=
  Shape.idx_ext₂ ((E _ 0).trans (by rw [h.1]; exact hr.symm)) ((E _ 1).trans (by rw [h.2]; exact hs.symm))

-- a row lies in the row block numbered by its quotient
theorem mem_rows {R C m : Nat} (hm : 0 < m) (I : Fin 2 → Nat) (i : (⟨2, ![R, C]⟩ : Shape).Idx) (h0 : I 0 = (i 0).val / m) (h1 : I 1 = 0) (a : Fin 2) :
    I a * (![m, C] : Fin 2 → Nat) a ≤ (i a).val ∧ (i a).val < I a * (![m, C] : Fin 2 → Nat) a + (![m, C] : Fin 2 → Nat) a := by
  match a with
  | ⟨0, _⟩ => show I 0 * m ≤ (i 0).val ∧ (i 0).val < I 0 * m + m; rw [h0]; exact ⟨Nat.div_mul_le_self _ _, Nat.lt_div_mul_add hm⟩
  | ⟨1, _⟩ => show I 1 * C ≤ (i 1).val ∧ (i 1).val < I 1 * C + C; rw [h1]; have := idx2_lt1 i; omega

abbrev RowWin {N : Nat} (f : Fin N → Fin 2 → Nat) : Prop := ∀ t, f t 0 = t.val ∧ f t 1 = 0
abbrev FixWin {N : Nat} (f : Fin N → Fin 2 → Nat) : Prop := ∀ t, f t 0 = 0 ∧ f t 1 = 0

-- the row blocks cover the rows: a row is in the block of the point numbered by its quotient
theorem row_point {N n m R C : Nat} {f : Fin N → Fin 2 → Nat} (hf : RowWin f) (hN : N = n) (hR : R ≤ m * n) (hm : 0 < m)
    (i : (⟨2, ![R, C]⟩ : Shape).Idx) :
    ∃ t : Fin N, ∀ a : Fin 2, f t a * (![m, C] : Fin 2 → Nat) a ≤ (i a).val ∧ (i a).val < f t a * (![m, C] : Fin 2 → Nat) a + (![m, C] : Fin 2 → Nat) a :=
  ⟨⟨(i 0).val / m, hN ▸ Nat.div_lt_of_lt_mul (lt_of_lt_of_le (idx2_lt0 i) hR)⟩, mem_rows hm _ i (hf _).1 (hf _).2⟩

-- the edge payload at (p, q): the gathered entry plus row p of the attributes times column q of the matrix plus the bias entry, cut off below at zero
theorem pay_apply (v0 : Vec Ideal S8000x128 .f32) (v2 : Vec Ideal S8000x16 .f32) (v4 : Vec Ideal S16x128 .f32) (v8 : Vec Ideal S1x128 .f32)
    (p : Fin 8000) (q : Fin 128) :
    k1_pay1 (F := Ideal) v0 v2 v4 v8 (ix2 p q)
      = max (v0 (ix2 p q) + ((∑ k : Fin 16, v2 (ix2 p k) * v4 (ix2 k q)) + v8 (ix2 0 q))) 0 := by
  unfold k1_pay1
  simp only [shapeCast_self]
  exact congrArg₂ max (congrArg (v0 (ix2 p q) + ·) (congrArg₂ (· + ·) (Cert.Hand.PlainDot.matmul_apply _ rfl none (truncf .bf16 v2 bitsLt_bf16_f32) (truncf .bf16 v4 bitsLt_bf16_f32) p q)
    (broadcastTo_1b_ab_apply v8 _ p q))) Ideal.ofBits_zero_f32

def msgArr (h : Vec Ideal S800000x128 .f32) (a : Vec Ideal S800000x16 .f32) (w : Vec Ideal S16x128 .f32) (b : Vec Ideal S1x128 .f32) :
    Vec Ideal S800000x128 .f32 :=
  fun i => max (h i + ((∑ k : Fin 16, a (ix2 (i 0) k) * w (ix2 k (i 1))) + b (ix2 0 (i 1)))) 0

theorem msgArr_apply (h : Vec Ideal S800000x128 .f32) (a : Vec Ideal S800000x16 .f32) (w : Vec Ideal S16x128 .f32) (b : Vec Ideal S1x128 .f32)
    (e : Fin 800000) (j : Fin 128) :
    msgArr h a w b (ix2 e j) = max (h (ix2 e j) + ((∑ k : Fin 16, a (ix2 e k) * w (ix2 k j)) + b (ix2 0 j))) 0 := rfl

-- a block of payloads is the same block of the messages when the row blocks sit at rows 8000 n on and the matrix and bias blocks are whole
theorem block_msg (xh : Vec Ideal S8000x128 .f32) (xa : Vec Ideal S8000x16 .f32) (xw : Vec Ideal S16x128 .f32) (xb : Vec Ideal S1x128 .f32)
    (h : Vec Ideal S800000x128 .f32) (a : Vec Ideal S800000x16 .f32) (w : Vec Ideal S16x128 .f32) (b : Vec Ideal S1x128 .f32)
    (n : Nat) (hn : n < 100)
    {e0 : S8000x128.Idx → S800000x128.Idx} {e1 : S8000x16.Idx → S800000x16.Idx} {e2 : S16x128.Idx → S16x128.Idx}
    {e3 : S1x128.Idx → S1x128.Idx} {e4 : S8000x128.Idx → S800000x128.Idx} {i0 i1 i2 i3 i4 : Fin 2 → Nat}
    (E0 : ∀ y (d : Fin 2), (e0 y d : Nat) = i0 d * (![8000, 128] : Fin 2 → Nat) d + y d)
    (E1 : ∀ y (d : Fin 2), (e1 y d : Nat) = i1 d * (![8000, 16] : Fin 2 → Nat) d + y d)
    (E2 : ∀ y (d : Fin 2), (e2 y d : Nat) = i2 d * (![16, 128] : Fin 2 → Nat) d + y d)
    (E3 : ∀ y (d : Fin 2), (e3 y d : Nat) = i3 d * (![1, 128] : Fin 2 → Nat) d + y d)
    (E4 : ∀ y (d : Fin 2), (e4 y d : Nat) = i4 d * (![8000, 128] : Fin 2 → Nat) d + y d)
    (I0 : i0 0 = n ∧ i0 1 = 0) (I1 : i1 0 = n ∧ i1 1 = 0) (I2 : i2 0 = 0 ∧ i2 1 = 0) (I3 : i3 0 = 0 ∧ i3 1 = 0) (I4 : i4 0 = n ∧ i4 1 = 0)
    (H0 : ∀ x, xh x = h (e0 x)) (H1 : ∀ x, xa x = a (e1 x)) (H2 : ∀ x, xw x = w (e2 x)) (H3 : ∀ x, xb x = b (e3 x))
    (y : S8000x128.Idx) : k1_pay1 (F := Ideal) xh xa xw xb y = msgArr h a w b (e4 y) := by
  obtain ⟨p, q, rfl⟩ : ∃ (p : Fin 8000) (q : Fin 128), y = ix2 p q := ⟨y 0, y 1, eq_ix2 y⟩
  have hr : n * 8000 + p.val < 800000 := by omega
  rw [pay_apply, emb_ix2 E4 I4 p q ⟨_, hr⟩ q rfl (by omega), msgArr_apply, H0, H3, emb_ix2 E0 I0 p q ⟨_, hr⟩ q rfl (by omega),
    emb_ix2 E3 I3 0 q 0 q rfl (by omega)]
  refine congrArg (fun z => max (_ + (z + _)) 0) (Finset.sum_congr rfl fun k _ => ?_)
  rw [H1, H2, emb_ix2 E1 I1 p k ⟨_, hr⟩ k rfl (by omega), emb_ix2 E2 I2 k q k q (by omega) (by omega)]

def affArr {K : Nat} (x : Vec Ideal ⟨2, ![50000, K]⟩ .f32) (w : Vec Ideal ⟨2, ![K, 128]⟩ .f32) (b : Vec Ideal S1x128 .f32) : Vec Ideal S50000x128 .f32 :=
  fun i => (∑ k : Fin K, x (ix2 (i 0) k) * w (ix2 k (i 1))) + b (ix2 0 (i 1))

-- a block of rows times the matrix plus the bias row is the same block of the affine map, when the row blocks sit at rows 2000 n on
theorem block_aff {K : Nat} (P : Vec Ideal S2000x128 .f32) (xx : Vec Ideal ⟨2, ![2000, K]⟩ .f32) (xw : Vec Ideal ⟨2, ![K, 128]⟩ .f32) (xb : Vec Ideal S1x128 .f32)
    (hP : ∀ p q, P (ix2 p q) = (∑ k : Fin K, xx (ix2 p k) * xw (ix2 k q)) + xb (ix2 0 q))
    (x : Vec Ideal ⟨2, ![50000, K]⟩ .f32) (w : Vec Ideal ⟨2, ![K, 128]⟩ .f32) (b : Vec Ideal S1x128 .f32) (n : Nat) (hn : n < 25)
    {e0 : (⟨2, ![2000, K]⟩ : Shape).Idx → (⟨2, ![50000, K]⟩ : Shape).Idx} {e1 : (⟨2, ![K, 128]⟩ : Shape).Idx → (⟨2, ![K, 128]⟩ : Shape).Idx}
    {e2 : S1x128.Idx → S1x128.Idx} {e3 : S2000x128.Idx → S50000x128.Idx} {i0 i1 i2 i3 : Fin 2 → Nat}
    (E0 : ∀ y (d : Fin 2), (e0 y d : Nat) = i0 d * (![2000, K] : Fin 2 → Nat) d + y d)
    (E1 : ∀ y (d : Fin 2), (e1 y d : Nat) = i1 d * (![K, 128] : Fin 2 → Nat) d + y d)
    (E2 : ∀ y (d : Fin 2), (e2 y d : Nat) = i2 d * (![1, 128] : Fin 2 → Nat) d + y d)
    (E3 : ∀ y (d : Fin 2), (e3 y d : Nat) = i3 d * (![2000, 128] : Fin 2 → Nat) d + y d)
    (I0 : i0 0 = n ∧ i0 1 = 0) (I1 : i1 0 = 0 ∧ i1 1 = 0) (I2 : i2 0 = 0 ∧ i2 1 = 0) (I3 : i3 0 = n ∧ i3 1 = 0)
    (H0 : ∀ y, xx y = x (e0 y)) (H1 : ∀ y, xw y = w (e1 y)) (H2 : ∀ y, xb y = b (e2 y))
    (y : S2000x128.Idx) : P y = affArr x w b (e3 y) := by
  obtain ⟨p, q, rfl⟩ : ∃ (p : Fin 2000) (q : Fin 128), y = ix2 p q := ⟨y 0, y 1, eq_ix2 y⟩
  have hr : n * 2000 + p.val < 50000 := by omega
  rw [hP, emb_ix2 E3 I3 p q ⟨_, hr⟩ q rfl (by omega), H2, emb_ix2 E2 I2 0 q 0 q rfl (by omega)]
  refine congrArg (· + _) (Finset.sum_congr rfl fun k _ => ?_)
  rw [H0, H1, emb_ix2 E0 I0 p k ⟨_, hr⟩ k rfl (by omega), emb_ix2 E1 I1 k q k q (by omega) (by omega)]

theorem pay0_apply (v0 : Vec Ideal S2000x128 .f32) (v2 : Vec Ideal S128x128 .f32) (v5 : Vec Ideal S1x128 .f32) (p : Fin 2000) (q : Fin 128) :
    k0_pay1 (F := Ideal) v0 v2 v5 (ix2 p q) = (∑ k : Fin 128, v0 (ix2 p k) * v2 (ix2 k q)) + v5 (ix2 0 q) := by
  unfold k0_pay1
  simp only [shapeCast_self]
  exact congrArg₂ (· + ·) (Cert.Hand.PlainDot.matmul_apply _ rfl none (truncf .bf16 v0 bitsLt_bf16_f32) (truncf .bf16 v2 bitsLt_bf16_f32) p q) (broadcastTo_1b_ab_apply v5 _ p q)

theorem pay7_apply (v0 : Vec Ideal S2000x512 .f32) (v3 : Vec Ideal S512x128 .f32) (v6 : Vec Ideal S1x128 .f32) (p : Fin 2000) (q : Fin 128) :
    k7_pay1 (F := Ideal) v0 v3 v6 (ix2 p q) = (∑ k : Fin 512, v0 (ix2 p k) * v3 (ix2 k q)) + v6 (ix2 0 q) := by
  unfold k7_pay1
  simp only [shapeCast_self]
  exact congrArg₂ (· + ·) (Cert.Hand.PlainDot.matmul_apply _ rfl none (truncf .bf16 v0 bitsLt_bf16_f32) (truncf .bf16 v3 bitsLt_bf16_f32) p q) (broadcastTo_1b_ab_apply v6 _ p q)

end Cert.KernelIdeal.Hand.ValD

end
-- ==== Proof.KernelIdeal.Val0.lean ====
import proofs.«404173_j463856468344_1_alg».proof.Proof.KernelIdeal.Reg0
import proofs.«404173_j463856468344_1_alg».proof.Proof.KernelIdeal.ValLibD

noncomputable section

namespace Cert.KernelIdeal.Hand.Val0

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat Cfg Window)
open Cert.KernelIdeal.Hand.ValD

variable (V : (c : Dev nD) → (b : Ref sig .tc) → Buf (Elt Ideal) ((c : Thread nD τ).loc b))

abbrev xarr0 (c : Dev nD) : Vec Ideal S50000x128 .f32 := V c main_arg0
abbrev warr0 (c : Dev nD) : Vec Ideal S128x128 .f32 := V c main_arg3
abbrev barr0 (c : Dev nD) : Vec Ideal S1x128 .f32 := V c main_v4

theorem idx_facts0 : RowWin win0_0.index ∧ FixWin win0_1.index ∧ FixWin win0_2.index ∧ RowWin win0_3.index := by
  decide +kernel

-- at point t the row blocks sit at rows 2000 t on and the matrix and bias blocks are whole, so the output block is block t of the affine map
theorem flushed0_eq (c : Dev nD) (t : Fin cfg0.N) :
    (dat0 V c).flushed 3 t = ((cfg0.win 3).blk t).view.read (Elt Ideal) (affArr (xarr0 V c) (warr0 V c) (barr0 V c)) := by
  obtain ⟨f0, f1, f2, f3⟩ := idx_facts0
  show (cfg0.win 3).cut (grid0.coords t) ((dat0 V c).after 3 t) = _
  rw [after0_3]
  unfold out0_3
  rw [View.canon_unit_zero hz]
  simp only [View.ld_unit_zero (S := S2000x128) hz, View.ld_unit_zero (S := S128x128) hz, View.ld_unit_zero (S := S1x128) hz]
  exact funext fun y => block_aff _ _ _ _ (pay0_apply _ _ _) (xarr0 V c) (warr0 V c) (barr0 V c) t.val (lt_of_lt_of_eq t.isLt N_0)
    (win0_0.rect_emb_val t) (win0_1.rect_emb_val t) (win0_2.rect_emb_val t) (win0_3.rect_emb_val t)
    (f0 t) (f1 t) (f2 t) (f3 t) (fun _ => rfl) (fun _ => rfl) (fun _ => rfl) y

-- the 25 row blocks of 2000 tile the 50000 rows
theorem cover0 (i : S50000x128.Idx) : ∃ t : Fin cfg0.N, (cfg0.win 3).flush t = true ∧ i ∈ ((cfg0.win 3).blk t).view.set := by
  obtain ⟨t, ht⟩ := row_point idx_facts0.2.2.2 N_0 (m := 2000) (by decide) (by decide) i
  refine ⟨t, flush0_3 t, ?_⟩
  show i ∈ ((View.whole main_v5).slice (win0_3.rect t)).set
  rw [View.set_slice_whole, Rect.mem_set_unit]
  exact ht

theorem final0 (c : Dev nD) : (dat0 V c).arrAt 3 cfg0.N = affArr (xarr0 V c) (warr0 V c) (barr0 V c) :=
  (dat0 V c).arrAt_eq_of_cover 3 _ (fun t _ => flushed0_eq V c t) cover0

theorem value0_apply (c : Dev nD) (i : Fin 50000) (j : Fin 128) :
    (dat0 (F := Ideal) V c).arrAt 3 cfg0.N (ix2 i j)
      = (∑ k : Fin 128, xarr0 V c (ix2 i k) * warr0 V c (ix2 k j)) + barr0 V c (ix2 0 j) :=
  congrFun (final0 V c) (ix2 i j)

end Cert.KernelIdeal.Hand.Val0

end
-- ==== Proof.KernelIdeal.Val1.lean ====
import proofs.«404173_j463856468344_1_alg».proof.Proof.KernelIdeal.Reg1
import proofs.«404173_j463856468344_1_alg».proof.Proof.KernelIdeal.ValLibD

noncomputable section

namespace Cert.KernelIdeal.Hand.Val1

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat Cfg Window)
open Cert.KernelIdeal.Hand.ValD

variable (V : (c : Dev nD) → (b : Ref sig .tc) → Buf (Elt Ideal) ((c : Thread nD τ).loc b))

abbrev harr1 (c : Dev nD) : Vec Ideal S800000x128 .f32 := V c main_v6
abbrev aarr1 (c : Dev nD) : Vec Ideal S800000x16 .f32 := V c main_arg2
abbrev warr1 (c : Dev nD) : Vec Ideal S16x128 .f32 := V c main_v8
abbrev barr1 (c : Dev nD) : Vec Ideal S1x128 .f32 := V c main_v11

theorem idx_facts : RowWin win1_0.index ∧ RowWin win1_1.index ∧ FixWin win1_2.index ∧ FixWin win1_3.index ∧ RowWin win1_4.index := by
  decide +kernel

-- at point t the row blocks sit at rows 8000 t on and the matrix and bias blocks are whole, so the output block is block t of the messages
theorem flushed_eq (c : Dev nD) (t : Fin cfg1.N) :
    (dat1 (F := Ideal) V c).flushed 4 t
      = ((cfg1.win 4).blk t).view.read (Elt Ideal) (msgArr (harr1 V c) (aarr1 V c) (warr1 V c) (barr1 V c)) := by
  obtain ⟨f0, f1, f2, f3, f4⟩ := idx_facts
  show (cfg1.win 4).cut (grid1.coords t) ((dat1 (F := Ideal) V c).after 4 t) = _
  rw [after1_4]
  unfold out1_4
  rw [View.canon_unit_zero hz]
  simp only [View.ld_unit_zero (S := S8000x128) hz, View.ld_unit_zero (S := S8000x16) hz, View.ld_unit_zero (S := S16x128) hz,
    View.ld_unit_zero (S := S1x128) hz]
  exact funext fun y => block_msg _ _ _ _ (harr1 V c) (aarr1 V c) (warr1 V c) (barr1 V c) t.val (lt_of_lt_of_eq t.isLt N_1)
    (win1_0.rect_emb_val t) (win1_1.rect_emb_val t) (win1_2.rect_emb_val t) (win1_3.rect_emb_val t) (win1_4.rect_emb_val t)
    (f0 t) (f1 t) (f2 t) (f3 t) (f4 t) (fun _ => rfl) (fun _ => rfl) (fun _ => rfl) (fun _ => rfl) y

-- the 100 row blocks of 8000 tile the 800000 rows
theorem cover (i : S800000x128.Idx) : ∃ t : Fin cfg1.N, (cfg1.win 4).flush t = true ∧ i ∈ ((cfg1.win 4).blk t).view.set := by
  obtain ⟨t, ht⟩ := row_point idx_facts.2.2.2.2 N_1 (m := 8000) (by decide) (by decide) i
  refine ⟨t, flush1_4 t, ?_⟩
  show i ∈ ((View.whole main_v12).slice (win1_4.rect t)).set
  rw [View.set_slice_whole, Rect.mem_set_unit]
  exact ht

theorem value1_eq (c : Dev nD) :
    (dat1 (F := Ideal) V c).arrAt 4 cfg1.N = msgArr (harr1 V c) (aarr1 V c) (warr1 V c) (barr1 V c) :=
  (dat1 (F := Ideal) V c).arrAt_eq_of_cover 4 _ (fun t _ => flushed_eq V c t) cover

theorem value1_apply (c : Dev nD) (e : Fin 800000) (j : Fin 128) :
    (dat1 (F := Ideal) V c).arrAt 4 cfg1.N (ix2 e j)
      = max (harr1 V c (ix2 e j) + ((∑ k : Fin 16, aarr1 V c (ix2 e k) * warr1 V c (ix2 k j)) + barr1 V c (ix2 0 j))) 0 :=
  congrFun (value1_eq V c) (ix2 e j)

end Cert.KernelIdeal.Hand.Val1

end
-- ==== Proof.KernelIdeal.ValLibE.lean ====
import proofs.«404173_j463856468344_1_alg».proof.Proof.KernelIdeal.Reg2
import proofs.«404173_j463856468344_1_alg».proof.Proof.PlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand.ValE

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat Cfg Window)

theorem hz : (![0, 0] : Fin 2 → Nat) = fun _ => 0 := funext fun a => by fin_cases a <;> rfl

-- The node update at node i and column j, from the self-weight, the states, the messages, the matrices and the bias rows.
def upd (E : Vec Ideal S1x1 .f32) (H G : Vec Ideal S50000x128 .f32) (W1 : Vec Ideal S128x256 .f32) (B1 : Vec Ideal S1x256 .f32)
    (W2 : Vec Ideal S256x128 .f32) (B2 : Vec Ideal S1x128 .f32) (i : Fin 50000) (j : Fin 128) : Ideal .f32 :=
  max ((∑ r : Fin 256, (max ((∑ k : Fin 128, ((Ideal.ofBits .f32 0x3F800000#32 + E (ix2 0 0)) * H (ix2 i k) + G (ix2 i k)) * W1 (ix2 k r)) + B1 (ix2 0 r)) 0) * W2 (ix2 r j)) + B2 (ix2 0 j)) 0

-- Where a block's row of states and of messages is node i's, the payload there is the update of node i.
theorem pay_upd (E : Vec Ideal S1x1 .f32) (H G : Vec Ideal S50000x128 .f32) (W1 : Vec Ideal S128x256 .f32) (B1 : Vec Ideal S1x256 .f32)
    (W2 : Vec Ideal S256x128 .f32) (B2 : Vec Ideal S1x128 .f32) (h g : Vec Ideal S2000x128 .f32) (x : S2000x128.Idx) (i : Fin 50000) (j : Fin 128)
    (hh : ∀ k, h (ix2 (x 0) k) = H (ix2 i k)) (hg : ∀ k, g (ix2 (x 0) k) = G (ix2 i k)) (hj : j.val = (x 1).val) :
    k2_pay1 (F := Ideal) E h g W1 B1 W2 B2 x = upd E H G W1 B1 W2 B2 i j := by
  obtain ⟨p, q, rfl⟩ : ∃ (p : Fin 2000) (q : Fin 128), x = ix2 p q := ⟨x 0, x 1, eq_ix2 x⟩
  obtain rfl : j = q := Fin.ext hj
  unfold k2_pay1 upd
  simp only [shapeCast_self]
  show max (matmul (F := Ideal) dot_S2000x256_S256x128_S2000x128_1_0_0_1_n_n none _ _ (constant (F := Ideal) S2000x128 .f32 0x00000000#32) (ix2 p j)
      + broadcastTo S2000x128 B2 broadcasts_S1x128_S2000x128 (ix2 p j)) (Ideal.ofBits .f32 0x00000000#32) = _
  rw [Ideal.ofBits_zero_f32, broadcastTo_1b_ab_apply, Cert.Hand.PlainDot.matmul_apply dot_S2000x256_S256x128_S2000x128_1_0_0_1_n_n rfl]
  refine congrArg (fun z => max (z + B2 (ix2 0 j)) 0) (Finset.sum_congr rfl fun r _ => congrArg (· * W2 (ix2 r j)) ?_)
  show max (matmul (F := Ideal) dot_S2000x128_S128x256_S2000x256_1_0_0_1_n_n none _ _ (constant (F := Ideal) S2000x256 .f32 0x00000000#32) (ix2 p r)
      + broadcastTo S2000x256 B1 broadcasts_S1x256_S2000x256 (ix2 p r)) (Ideal.ofBits .f32 0x00000000#32) = _
  rw [Ideal.ofBits_zero_f32, broadcastTo_1b_ab_apply, Cert.Hand.PlainDot.matmul_apply dot_S2000x128_S128x256_S2000x256_1_0_0_1_n_n rfl]
  refine congrArg (fun z => max (z + B1 (ix2 0 r)) 0) (Finset.sum_congr rfl fun k _ => congrArg (· * W1 (ix2 k r)) ?_)
  show broadcastTo S2000x128 (fun i => Ideal.ofBits .f32 0x3F800000#32 + E i) broadcasts_S1x1_S2000x128 (ix2 p k) * h (ix2 p k) + g (ix2 p k) = _
  rw [broadcastTo_apply _ broadcasts_S1x1_S2000x128 (ix2 p k) (ix2 (0 : Fin 1) (0 : Fin 1)) (Fin.forall_fin_two.2 ⟨rfl, rfl⟩), hh, hg]

-- The output block after the body is the payload of the input blocks, each taken whole.
theorem out_eq (x0 x1 : Vec Ideal S2000x128 .f32) (x2 : Vec Ideal S1x1 .f32) (x3 : Vec Ideal S128x256 .f32) (x4 : Vec Ideal S1x256 .f32)
    (x5 : Vec Ideal S256x128 .f32) (x6 : Vec Ideal S1x128 .f32) : out2_7 x0 x1 x2 x3 x4 x5 x6 = k2_pay1 x2 x0 x1 x3 x4 x5 x6 := by
  unfold out2_7
  rw [View.canon_unit_zero hz]
  simp only [View.ld_unit_zero (S := S2000x128) hz, View.ld_unit_zero (S := S1x1) hz, View.ld_unit_zero (S := S128x256) hz,
    View.ld_unit_zero (S := S1x256) hz, View.ld_unit_zero (S := S256x128) hz, View.ld_unit_zero (S := S1x128) hz]

-- A block at block index zero on every axis sits in its array where it sits in itself.
theorem emb_whole {G : Pipeline.Grid} (w : Window sig G) (t : Fin G.N) (h : ∀ a, w.index t a = 0) (y : (w.xblock (G.coords t)).Idx)
    (i : w.shape.Idx) (hi : ∀ a, (i a).val = (y a).val) : (w.rect t).emb y = i :=
  funext fun a => Fin.ext ((w.rect_emb_val_of_index_zero t a (h a) y).trans (hi a).symm)

-- Whatever the seven arrays hold, what a point writes back is its block of their update: the self-weight, the matrices and the bias rows come whole, the states and the messages by the output's row block.
theorem flushed_eq (A0 A1 : Vec Ideal S50000x128 .f32) (A2 : Vec Ideal S1x1 .f32) (A3 : Vec Ideal S128x256 .f32) (A4 : Vec Ideal S1x256 .f32)
    (A5 : Vec Ideal S256x128 .f32) (A6 : Vec Ideal S1x128 .f32) (t : Fin grid2.N) :
    win2_7.cut (grid2.coords t) (out2_7 ((win2_0.blk t).view.read (Elt Ideal) A0) ((win2_1.blk t).view.read (Elt Ideal) A1)
        ((win2_2.blk t).view.read (Elt Ideal) A2) ((win2_3.blk t).view.read (Elt Ideal) A3) ((win2_4.blk t).view.read (Elt Ideal) A4)
        ((win2_5.blk t).view.read (Elt Ideal) A5) ((win2_6.blk t).view.read (Elt Ideal) A6))
      = (win2_7.blk t).view.read (Elt Ideal) fun idx => upd A2 A0 A1 A3 A4 A5 A6 (idx 0) (idx 1) := by
  have e2 : (win2_2.blk t).view.read (Elt Ideal) A2 = A2 := funext fun y => congrArg A2 (emb_whole win2_2 t (Fin.forall_fin_two.2 ⟨rfl, rfl⟩) y y fun _ => rfl)
  have e3 : (win2_3.blk t).view.read (Elt Ideal) A3 = A3 := funext fun y => congrArg A3 (emb_whole win2_3 t (Fin.forall_fin_two.2 ⟨rfl, rfl⟩) y y fun _ => rfl)
  have e4 : (win2_4.blk t).view.read (Elt Ideal) A4 = A4 := funext fun y => congrArg A4 (emb_whole win2_4 t (Fin.forall_fin_two.2 ⟨rfl, rfl⟩) y y fun _ => rfl)
  have e5 : (win2_5.blk t).view.read (Elt Ideal) A5 = A5 := funext fun y => congrArg A5 (emb_whole win2_5 t (Fin.forall_fin_two.2 ⟨rfl, rfl⟩) y y fun _ => rfl)
  have e6 : (win2_6.blk t).view.read (Elt Ideal) A6 = A6 := funext fun y => congrArg A6 (emb_whole win2_6 t (Fin.forall_fin_two.2 ⟨rfl, rfl⟩) y y fun _ => rfl)
  rw [out_eq, e2, e3, e4, e5, e6]
  funext y
  exact pay_upd _ A0 A1 _ _ _ _ _ _ _ _ _
    (fun k => congrArg A0 (Shape.idx_ext₂ rfl (win2_0.rect_emb_val_of_index_zero t 1 rfl _)))
    (fun k => congrArg A1 (Shape.idx_ext₂ rfl (win2_1.rect_emb_val_of_index_zero t 1 rfl _)))
    (win2_7.rect_emb_val_of_index_zero t 1 rfl y)

-- The 25 blocks of 2000 rows cover the 50000 rows: row r lies in block r / 2000.
theorem cover (i : S50000x128.Idx) : ∃ t : Fin grid2.N, i ∈ (win2_7.rect t).set := by
  have hi0 : (i 0).val < 50000 := (i 0).isLt
  have hi1 : (i 1).val < 128 := (i 1).isLt
  obtain ⟨t, ht0, ht1⟩ := (by decide +kernel : ∀ q : Fin 25, ∃ t : Fin grid2.N, win2_7.index t (0 : Fin 2) = q.val ∧ win2_7.index t (1 : Fin 2) = 0)
    ⟨(i 0).val / 2000, by omega⟩
  have ht0' : win2_7.index t (0 : Fin 2) = (i 0).val / 2000 := ht0
  refine ⟨t, Rect.mem_set_unit.2 fun a => ?_⟩
  match a with
  | ⟨0, _⟩ => show win2_7.index t (0 : Fin 2) * 2000 ≤ (i 0).val ∧ (i 0).val < win2_7.index t (0 : Fin 2) * 2000 + 2000; omega
  | ⟨1, _⟩ => show win2_7.index t (1 : Fin 2) * 128 ≤ (i 1).val ∧ (i 1).val < win2_7.index t (1 : Fin 2) * 128 + 128; omega

end Cert.KernelIdeal.Hand.ValE

end
-- ==== Proof.KernelIdeal.Val2.lean ====
import proofs.«404173_j463856468344_1_alg».proof.Proof.KernelIdeal.ValLibE

noncomputable section

namespace Cert.KernelIdeal.Hand.Val2

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat Cfg Window)
open Cert.KernelIdeal.Hand.ValE

variable (V : (c : Dev nD) → (b : Ref sig .tc) → Buf (Elt Ideal) ((c : Thread nD τ).loc b))

abbrev harr2 (c : Dev nD) : Vec Ideal S50000x128 .f32 := V c main_v5
abbrev garr2 (c : Dev nD) : Vec Ideal S50000x128 .f32 := V c main_v15
abbrev earr2 (c : Dev nD) : Vec Ideal S1x1 .f32 := V c main_v28
abbrev w1arr2 (c : Dev nD) : Vec Ideal S128x256 .f32 := V c main_v19
abbrev b1arr2 (c : Dev nD) : Vec Ideal S1x256 .f32 := V c main_v26
abbrev w2arr2 (c : Dev nD) : Vec Ideal S256x128 .f32 := V c main_v23
abbrev b2arr2 (c : Dev nD) : Vec Ideal S1x128 .f32 := V c main_v27

-- What the output array ends holding: the update of the arrays as the region finds them, index by index.
abbrev G2 (c : Dev nD) : S50000x128.Idx → Ideal .f32 := fun idx =>
  upd (earr2 V c) (harr2 V c) (garr2 V c) (w1arr2 V c) (b1arr2 V c) (w2arr2 V c) (b2arr2 V c) (idx 0) (idx 1)

-- What point t writes back is its block of the update.
theorem flushed2_eq (c : Dev nD) (t : Fin cfg2.N) :
    (dat2 V c).flushed 7 t = ((cfg2.win 7).blk t).view.read (Elt Ideal) (G2 V c) := by
  show (cfg2.win 7).cut (grid2.coords t) ((dat2 V c).after 7 t) = _
  rw [after2_7]
  exact flushed_eq (harr2 V c) (garr2 V c) (earr2 V c) (w1arr2 V c) (b1arr2 V c) (w2arr2 V c) (b2arr2 V c) t

-- The blocks cover the array, so it ends holding the update.
theorem final2 (c : Dev nD) : (dat2 V c).arrAt 7 cfg2.N = G2 V c :=
  (dat2 V c).arrAt_eq_of_cover 7 (G2 V c) (fun t _ => flushed2_eq V c t) fun i =>
    (cover i).imp fun t ht => ⟨flush2_7 t, (View.set_slice_whole main_v29 (win2_7.rect t)).symm ▸ ht⟩

theorem value2_apply (c : Dev nD) (i : Fin 50000) (j : Fin 128) :
    (dat2 (F := Ideal) V c).arrAt 7 cfg2.N (ix2 i j)
      = max ((∑ r : Fin 256, (max ((∑ k : Fin 128, ((Ideal.ofBits .f32 0x3F800000#32 + earr2 V c (ix2 0 0)) * harr2 V c (ix2 i k) + garr2 V c (ix2 i k)) * w1arr2 V c (ix2 k r)) + b1arr2 V c (ix2 0 r)) 0) * w2arr2 V c (ix2 r j)) + b2arr2 V c (ix2 0 j)) 0 :=
  congrFun (final2 V c) (ix2 i j)

end Cert.KernelIdeal.Hand.Val2

end
-- ==== Proof.KernelIdeal.Val3.lean ====
import proofs.«404173_j463856468344_1_alg».proof.Proof.KernelIdeal.Reg3
import proofs.«404173_j463856468344_1_alg».proof.Proof.KernelIdeal.ValLibD

noncomputable section

namespace Cert.KernelIdeal.Hand.Val3

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat Cfg Window)
open Cert.KernelIdeal.Hand.ValD

variable (V : (c : Dev nD) → (b : Ref sig .tc) → Buf (Elt Ideal) ((c : Thread nD τ).loc b))

abbrev harr3 (c : Dev nD) : Vec Ideal S800000x128 .f32 := V c main_v30
abbrev aarr3 (c : Dev nD) : Vec Ideal S800000x16 .f32 := V c main_arg2
abbrev warr3 (c : Dev nD) : Vec Ideal S16x128 .f32 := V c main_v32
abbrev barr3 (c : Dev nD) : Vec Ideal S1x128 .f32 := V c main_v35

theorem idx_facts : RowWin win3_0.index ∧ RowWin win3_1.index ∧ FixWin win3_2.index ∧ FixWin win3_3.index ∧ RowWin win3_4.index := by
  decide +kernel

-- at point t the row blocks sit at rows 8000 t on and the matrix and bias blocks are whole, so the output block is block t of the messages
theorem flushed_eq (c : Dev nD) (t : Fin cfg3.N) :
    (dat3 (F := Ideal) V c).flushed 4 t
      = ((cfg3.win 4).blk t).view.read (Elt Ideal) (msgArr (harr3 V c) (aarr3 V c) (warr3 V c) (barr3 V c)) := by
  obtain ⟨f0, f1, f2, f3, f4⟩ := idx_facts
  show (cfg3.win 4).cut (grid3.coords t) ((dat3 (F := Ideal) V c).after 4 t) = _
  rw [after3_4]
  unfold out3_4
  rw [View.canon_unit_zero hz]
  simp only [View.ld_unit_zero (S := S8000x128) hz, View.ld_unit_zero (S := S8000x16) hz, View.ld_unit_zero (S := S16x128) hz,
    View.ld_unit_zero (S := S1x128) hz]
  exact funext fun y => block_msg _ _ _ _ (harr3 V c) (aarr3 V c) (warr3 V c) (barr3 V c) t.val (lt_of_lt_of_eq t.isLt N_3)
    (win3_0.rect_emb_val t) (win3_1.rect_emb_val t) (win3_2.rect_emb_val t) (win3_3.rect_emb_val t) (win3_4.rect_emb_val t)
    (f0 t) (f1 t) (f2 t) (f3 t) (f4 t) (fun _ => rfl) (fun _ => rfl) (fun _ => rfl) (fun _ => rfl) y

-- the 100 row blocks of 8000 tile the 800000 rows
theorem cover (i : S800000x128.Idx) : ∃ t : Fin cfg3.N, (cfg3.win 4).flush t = true ∧ i ∈ ((cfg3.win 4).blk t).view.set := by
  obtain ⟨t, ht⟩ := row_point idx_facts.2.2.2.2 N_3 (m := 8000) (by decide) (by decide) i
  refine ⟨t, flush3_4 t, ?_⟩
  show i ∈ ((View.whole main_v36).slice (win3_4.rect t)).set
  rw [View.set_slice_whole, Rect.mem_set_unit]
  exact ht

theorem value3_eq (c : Dev nD) :
    (dat3 (F := Ideal) V c).arrAt 4 cfg3.N = msgArr (harr3 V c) (aarr3 V c) (warr3 V c) (barr3 V c) :=
  (dat3 (F := Ideal) V c).arrAt_eq_of_cover 4 _ (fun t _ => flushed_eq V c t) cover

theorem value3_apply (c : Dev nD) (e : Fin 800000) (j : Fin 128) :
    (dat3 (F := Ideal) V c).arrAt 4 cfg3.N (ix2 e j)
      = max (harr3 V c (ix2 e j) + ((∑ k : Fin 16, aarr3 V c (ix2 e k) * warr3 V c (ix2 k j)) + barr3 V c (ix2 0 j))) 0 :=
  congrFun (value3_eq V c) (ix2 e j)

end Cert.KernelIdeal.Hand.Val3

end
-- ==== Proof.KernelIdeal.Val4.lean ====
import proofs.«404173_j463856468344_1_alg».proof.Proof.KernelIdeal.Reg4
import proofs.«404173_j463856468344_1_alg».proof.Proof.KernelIdeal.ValLibE

noncomputable section

namespace Cert.KernelIdeal.Hand.Val4

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat Cfg Window)
open Cert.KernelIdeal.Hand.ValE

variable (V : (c : Dev nD) → (b : Ref sig .tc) → Buf (Elt Ideal) ((c : Thread nD τ).loc b))

abbrev harr4 (c : Dev nD) : Vec Ideal S50000x128 .f32 := V c main_v29
abbrev garr4 (c : Dev nD) : Vec Ideal S50000x128 .f32 := V c main_v39
abbrev earr4 (c : Dev nD) : Vec Ideal S1x1 .f32 := V c main_v52
abbrev w1arr4 (c : Dev nD) : Vec Ideal S128x256 .f32 := V c main_v43
abbrev b1arr4 (c : Dev nD) : Vec Ideal S1x256 .f32 := V c main_v50
abbrev w2arr4 (c : Dev nD) : Vec Ideal S256x128 .f32 := V c main_v47
abbrev b2arr4 (c : Dev nD) : Vec Ideal S1x128 .f32 := V c main_v51

-- What the output array ends holding: the update of the arrays as the region finds them, index by index.
abbrev G4 (c : Dev nD) : S50000x128.Idx → Ideal .f32 := fun idx =>
  upd (earr4 V c) (harr4 V c) (garr4 V c) (w1arr4 V c) (b1arr4 V c) (w2arr4 V c) (b2arr4 V c) (idx 0) (idx 1)

-- What point t writes back is its block of the update.
theorem flushed4_eq (c : Dev nD) (t : Fin cfg4.N) :
    (dat4 V c).flushed 7 t = ((cfg4.win 7).blk t).view.read (Elt Ideal) (G4 V c) := by
  show (cfg4.win 7).cut (grid4.coords t) ((dat4 V c).after 7 t) = _
  rw [after4_7]
  exact flushed_eq (harr4 V c) (garr4 V c) (earr4 V c) (w1arr4 V c) (b1arr4 V c) (w2arr4 V c) (b2arr4 V c) t

-- The blocks cover the array, so it ends holding the update.
theorem final4 (c : Dev nD) : (dat4 V c).arrAt 7 cfg4.N = G4 V c :=
  (dat4 V c).arrAt_eq_of_cover 7 (G4 V c) (fun t _ => flushed4_eq V c t) fun i =>
    (cover i).imp fun t ht => ⟨flush4_7 t, (View.set_slice_whole main_v53 (win4_7.rect t)).symm ▸ ht⟩

theorem value4_apply (c : Dev nD) (i : Fin 50000) (j : Fin 128) :
    (dat4 (F := Ideal) V c).arrAt 7 cfg4.N (ix2 i j)
      = max ((∑ r : Fin 256, (max ((∑ k : Fin 128, ((Ideal.ofBits .f32 0x3F800000#32 + earr4 V c (ix2 0 0)) * harr4 V c (ix2 i k) + garr4 V c (ix2 i k)) * w1arr4 V c (ix2 k r)) + b1arr4 V c (ix2 0 r)) 0) * w2arr4 V c (ix2 r j)) + b2arr4 V c (ix2 0 j)) 0 :=
  congrFun (final4 V c) (ix2 i j)

end Cert.KernelIdeal.Hand.Val4

end
-- ==== Proof.KernelIdeal.Val5.lean ====
import proofs.«404173_j463856468344_1_alg».proof.Proof.KernelIdeal.Reg5
import proofs.«404173_j463856468344_1_alg».proof.Proof.KernelIdeal.ValLibD

noncomputable section

namespace Cert.KernelIdeal.Hand.Val5

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat Cfg Window)
open Cert.KernelIdeal.Hand.ValD

variable (V : (c : Dev nD) → (b : Ref sig .tc) → Buf (Elt Ideal) ((c : Thread nD τ).loc b))

abbrev harr5 (c : Dev nD) : Vec Ideal S800000x128 .f32 := V c main_v54
abbrev aarr5 (c : Dev nD) : Vec Ideal S800000x16 .f32 := V c main_arg2
abbrev warr5 (c : Dev nD) : Vec Ideal S16x128 .f32 := V c main_v56
abbrev barr5 (c : Dev nD) : Vec Ideal S1x128 .f32 := V c main_v59

theorem idx_facts : RowWin win5_0.index ∧ RowWin win5_1.index ∧ FixWin win5_2.index ∧ FixWin win5_3.index ∧ RowWin win5_4.index := by
  decide +kernel

-- at point t the row blocks sit at rows 8000 t on and the matrix and bias blocks are whole, so the output block is block t of the messages
theorem flushed_eq (c : Dev nD) (t : Fin cfg5.N) :
    (dat5 (F := Ideal) V c).flushed 4 t
      = ((cfg5.win 4).blk t).view.read (Elt Ideal) (msgArr (harr5 V c) (aarr5 V c) (warr5 V c) (barr5 V c)) := by
  obtain ⟨f0, f1, f2, f3, f4⟩ := idx_facts
  show (cfg5.win 4).cut (grid5.coords t) ((dat5 (F := Ideal) V c).after 4 t) = _
  rw [after5_4]
  unfold out5_4
  rw [View.canon_unit_zero hz]
  simp only [View.ld_unit_zero (S := S8000x128) hz, View.ld_unit_zero (S := S8000x16) hz, View.ld_unit_zero (S := S16x128) hz,
    View.ld_unit_zero (S := S1x128) hz]
  exact funext fun y => block_msg _ _ _ _ (harr5 V c) (aarr5 V c) (warr5 V c) (barr5 V c) t.val (lt_of_lt_of_eq t.isLt N_5)
    (win5_0.rect_emb_val t) (win5_1.rect_emb_val t) (win5_2.rect_emb_val t) (win5_3.rect_emb_val t) (win5_4.rect_emb_val t)
    (f0 t) (f1 t) (f2 t) (f3 t) (f4 t) (fun _ => rfl) (fun _ => rfl) (fun _ => rfl) (fun _ => rfl) y

-- the 100 row blocks of 8000 tile the 800000 rows
theorem cover (i : S800000x128.Idx) : ∃ t : Fin cfg5.N, (cfg5.win 4).flush t = true ∧ i ∈ ((cfg5.win 4).blk t).view.set := by
  obtain ⟨t, ht⟩ := row_point idx_facts.2.2.2.2 N_5 (m := 8000) (by decide) (by decide) i
  refine ⟨t, flush5_4 t, ?_⟩
  show i ∈ ((View.whole main_v60).slice (win5_4.rect t)).set
  rw [View.set_slice_whole, Rect.mem_set_unit]
  exact ht

theorem value5_eq (c : Dev nD) :
    (dat5 (F := Ideal) V c).arrAt 4 cfg5.N = msgArr (harr5 V c) (aarr5 V c) (warr5 V c) (barr5 V c) :=
  (dat5 (F := Ideal) V c).arrAt_eq_of_cover 4 _ (fun t _ => flushed_eq V c t) cover

theorem value5_apply (c : Dev nD) (e : Fin 800000) (j : Fin 128) :
    (dat5 (F := Ideal) V c).arrAt 4 cfg5.N (ix2 e j)
      = max (harr5 V c (ix2 e j) + ((∑ k : Fin 16, aarr5 V c (ix2 e k) * warr5 V c (ix2 k j)) + barr5 V c (ix2 0 j))) 0 :=
  congrFun (value5_eq V c) (ix2 e j)

end Cert.KernelIdeal.Hand.Val5

end
-- ==== Proof.KernelIdeal.Val6.lean ====
import proofs.«404173_j463856468344_1_alg».proof.Proof.KernelIdeal.Reg6
import proofs.«404173_j463856468344_1_alg».proof.Proof.KernelIdeal.ValLibE

noncomputable section

namespace Cert.KernelIdeal.Hand.Val6

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat Cfg Window)
open Cert.KernelIdeal.Hand.ValE

variable (V : (c : Dev nD) → (b : Ref sig .tc) → Buf (Elt Ideal) ((c : Thread nD τ).loc b))

abbrev harr6 (c : Dev nD) : Vec Ideal S50000x128 .f32 := V c main_v53
abbrev garr6 (c : Dev nD) : Vec Ideal S50000x128 .f32 := V c main_v63
abbrev earr6 (c : Dev nD) : Vec Ideal S1x1 .f32 := V c main_v76
abbrev w1arr6 (c : Dev nD) : Vec Ideal S128x256 .f32 := V c main_v67
abbrev b1arr6 (c : Dev nD) : Vec Ideal S1x256 .f32 := V c main_v74
abbrev w2arr6 (c : Dev nD) : Vec Ideal S256x128 .f32 := V c main_v71
abbrev b2arr6 (c : Dev nD) : Vec Ideal S1x128 .f32 := V c main_v75

-- What the output array ends holding: the update of the arrays as the region finds them, index by index.
abbrev G6 (c : Dev nD) : S50000x128.Idx → Ideal .f32 := fun idx =>
  upd (earr6 V c) (harr6 V c) (garr6 V c) (w1arr6 V c) (b1arr6 V c) (w2arr6 V c) (b2arr6 V c) (idx 0) (idx 1)

-- What point t writes back is its block of the update.
theorem flushed6_eq (c : Dev nD) (t : Fin cfg6.N) :
    (dat6 V c).flushed 7 t = ((cfg6.win 7).blk t).view.read (Elt Ideal) (G6 V c) := by
  show (cfg6.win 7).cut (grid6.coords t) ((dat6 V c).after 7 t) = _
  rw [after6_7]
  exact flushed_eq (harr6 V c) (garr6 V c) (earr6 V c) (w1arr6 V c) (b1arr6 V c) (w2arr6 V c) (b2arr6 V c) t

-- The blocks cover the array, so it ends holding the update.
theorem final6 (c : Dev nD) : (dat6 V c).arrAt 7 cfg6.N = G6 V c :=
  (dat6 V c).arrAt_eq_of_cover 7 (G6 V c) (fun t _ => flushed6_eq V c t) fun i =>
    (cover i).imp fun t ht => ⟨flush6_7 t, (View.set_slice_whole main_v77 (win6_7.rect t)).symm ▸ ht⟩

theorem value6_apply (c : Dev nD) (i : Fin 50000) (j : Fin 128) :
    (dat6 (F := Ideal) V c).arrAt 7 cfg6.N (ix2 i j)
      = max ((∑ r : Fin 256, (max ((∑ k : Fin 128, ((Ideal.ofBits .f32 0x3F800000#32 + earr6 V c (ix2 0 0)) * harr6 V c (ix2 i k) + garr6 V c (ix2 i k)) * w1arr6 V c (ix2 k r)) + b1arr6 V c (ix2 0 r)) 0) * w2arr6 V c (ix2 r j)) + b2arr6 V c (ix2 0 j)) 0 :=
  congrFun (final6 V c) (ix2 i j)

end Cert.KernelIdeal.Hand.Val6

end
-- ==== Proof.KernelIdeal.Val7.lean ====
import proofs.«404173_j463856468344_1_alg».proof.Proof.KernelIdeal.Reg7
import proofs.«404173_j463856468344_1_alg».proof.Proof.KernelIdeal.ValLibD

noncomputable section

namespace Cert.KernelIdeal.Hand.Val7

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat Cfg Window)
open Cert.KernelIdeal.Hand.ValD

variable (V : (c : Dev nD) → (b : Ref sig .tc) → Buf (Elt Ideal) ((c : Thread nD τ).loc b))

abbrev xarr7 (c : Dev nD) : Vec Ideal S50000x512 .f32 := V c main_v78
abbrev warr7 (c : Dev nD) : Vec Ideal S512x128 .f32 := V c main_arg12
abbrev barr7 (c : Dev nD) : Vec Ideal S1x128 .f32 := V c main_v79

theorem idx_facts7 : RowWin win7_0.index ∧ FixWin win7_1.index ∧ FixWin win7_2.index ∧ RowWin win7_3.index := by
  decide +kernel

-- at point t the row blocks sit at rows 2000 t on and the matrix and bias blocks are whole, so the output block is block t of the affine map
theorem flushed7_eq (c : Dev nD) (t : Fin cfg7.N) :
    (dat7 V c).flushed 3 t = ((cfg7.win 3).blk t).view.read (Elt Ideal) (affArr (xarr7 V c) (warr7 V c) (barr7 V c)) := by
  obtain ⟨f0, f1, f2, f3⟩ := idx_facts7
  show (cfg7.win 3).cut (grid7.coords t) ((dat7 V c).after 3 t) = _
  rw [after7_3]
  unfold out7_3
  rw [View.canon_unit_zero hz]
  simp only [View.ld_unit_zero (S := S2000x512) hz, View.ld_unit_zero (S := S512x128) hz, View.ld_unit_zero (S := S1x128) hz]
  exact funext fun y => block_aff _ _ _ _ (pay7_apply _ _ _) (xarr7 V c) (warr7 V c) (barr7 V c) t.val (lt_of_lt_of_eq t.isLt N_7)
    (win7_0.rect_emb_val t) (win7_1.rect_emb_val t) (win7_2.rect_emb_val t) (win7_3.rect_emb_val t)
    (f0 t) (f1 t) (f2 t) (f3 t) (fun _ => rfl) (fun _ => rfl) (fun _ => rfl) y

-- the 25 row blocks of 2000 tile the 50000 rows
theorem cover7 (i : S50000x128.Idx) : ∃ t : Fin cfg7.N, (cfg7.win 3).flush t = true ∧ i ∈ ((cfg7.win 3).blk t).view.set := by
  obtain ⟨t, ht⟩ := row_point idx_facts7.2.2.2 N_7 (m := 2000) (by decide) (by decide) i
  refine ⟨t, flush7_3 t, ?_⟩
  show i ∈ ((View.whole main_v80).slice (win7_3.rect t)).set
  rw [View.set_slice_whole, Rect.mem_set_unit]
  exact ht

theorem final7 (c : Dev nD) : (dat7 V c).arrAt 3 cfg7.N = affArr (xarr7 V c) (warr7 V c) (barr7 V c) :=
  (dat7 V c).arrAt_eq_of_cover 3 _ (fun t _ => flushed7_eq V c t) cover7

theorem value7_apply (c : Dev nD) (i : Fin 50000) (j : Fin 128) :
    (dat7 (F := Ideal) V c).arrAt 3 cfg7.N (ix2 i j)
      = (∑ k : Fin 512, xarr7 V c (ix2 i k) * warr7 V c (ix2 k j)) + barr7 V c (ix2 0 j) :=
  congrFun (final7 V c) (ix2 i j)

end Cert.KernelIdeal.Hand.Val7

end
-- ==== Proof.RefStages.lean ====
import proofs.«404173_j463856468344_1_alg».proof.Proof.Gen.ReferenceIdeal.Run
import proofs.«404173_j463856468344_1_alg».proof.Proof.Gen.ReferenceIdeal.Read
import proofs.«404173_j463856468344_1_alg».proof.Proof.PlainDot
import Idealize.ShloMosaic.Lib.Pipeline.Value
import Idealize.ShloMosaic.Lib.ValueIdx
import Idealize.ShloMosaic.PureOps.Ideal.Laws
import Idealize.ShloMosaic.Lib.IdealHost

noncomputable section

open scoped BigOperators

namespace Cert.ReferenceIdeal.Stage

open Cert.ReferenceIdeal Cert.ReferenceIdeal.Gen Idealize.ShloMosaic Idealize.ShloMosaic.TcCoe Idealize.SL.Sem

section Stages

variable {F : FTy → Type} [FloatOps F]

def rowBias128 (b : FVec F S128 .f32) : FVec F S1x128 .f32 :=
  broadcastInDim S1x128 ![1] bcast_S128_S1x128_1 b

def rowBias256 (b : FVec F S256 .f32) : FVec F S1x256 .f32 :=
  broadcastInDim S1x256 ![1] bcast_S256_S1x256_1 b

def enc (x : FVec F S50000x128 .f32) (w : FVec F S128x128 .f32) (b2 : FVec F S1x128 .f32) : FVec F S50000x128 .f32 :=
  addf (Host.dotGeneral dot_S50000x128_S128x128_S50000x128_1_0_0_1_n_n none x w) (broadcastInDim S50000x128 ![0, 1] bcast_S1x128_S50000x128_0_1 b2)

def wrapIdx (src : IVec S800000 32) : IVec S800000x1 32 :=
  broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src)

def msg (hsrc : FVec F S800000x128 .f32) (ea : FVec F S800000x16 .f32) (ew : FVec F S16x128 .f32) (eb2 : FVec F S1x128 .f32) : FVec F S800000x128 .f32 :=
  maximumf (addf hsrc (addf (Host.dotGeneral dot_S800000x16_S16x128_S800000x128_1_0_0_1_n_n none ea ew) (broadcastInDim S800000x128 ![0, 1] bcast_S1x128_S800000x128_0_1 eb2))) (broadcastInDim S800000x128 ![] bcast_S_S800000x128 (constant S_ .f32 0x00000000#32))

def agg (dst : IVec S800000 32) (u : FVec F S800000x128 .f32) : FVec F S50000x128 .f32 :=
  Host.scatterAdd scatter_S50000x128_S800000x1_S800000x128_1_0_0_1 (broadcastInDim S50000x128 ![] bcast_S_S50000x128 (constant S_ .f32 0x00000000#32)) (broadcastInDim S800000x1 ![0] bcast_S800000_S800000x1_0 dst) u

def upd (h a : FVec F S50000x128 .f32) (e0 : FVec F S_ .f32) (w1 : FVec F S128x256 .f32) (b1 : FVec F S1x256 .f32) (w2 : FVec F S256x128 .f32) (b2 : FVec F S1x128 .f32) : FVec F S50000x128 .f32 :=
  maximumf (addf (Host.dotGeneral dot_S50000x256_S256x128_S50000x128_1_0_0_1_n_n none (maximumf (addf (Host.dotGeneral dot_S50000x128_S128x256_S50000x256_1_0_0_1_n_n none (addf (mulf (broadcastInDim S50000x128 ![] bcast_S_S50000x128 (addf (constant S_ .f32 0x3F800000#32) e0)) h) a) w1) (broadcastInDim S50000x256 ![0, 1] bcast_S1x256_S50000x256_0_1 b1)) (broadcastInDim S50000x256 ![] bcast_S_S50000x256 (constant S_ .f32 0x00000000#32))) w2) (broadcastInDim S50000x128 ![0, 1] bcast_S1x128_S50000x128_0_1 b2)) (broadcastInDim S50000x128 ![] bcast_S_S50000x128 (constant S_ .f32 0x00000000#32))

def outpCat (cat : FVec F S50000x512 .f32) (ow : FVec F S512x128 .f32) (ob2 : FVec F S1x128 .f32) : FVec F S50000x128 .f32 :=
  addf (Host.dotGeneral dot_S50000x512_S512x128_S50000x128_1_0_0_1_n_n none cat ow) (broadcastInDim S50000x128 ![0, 1] bcast_S1x128_S50000x128_0_1 ob2)

def outp (h0 h1 h2 h3 : FVec F S50000x128 .f32) (ow : FVec F S512x128 .f32) (ob2 : FVec F S1x128 .f32) : FVec F S50000x128 .f32 :=
  outpCat (concatenate S50000x512 1 [⟨S50000x128, h0⟩, ⟨S50000x128, h1⟩, ⟨S50000x128, h2⟩, ⟨S50000x128, h3⟩] concatenates_S50000x128_S50000x128_S50000x128_S50000x128_S50000x512_d1) ow ob2

def srcOf (ei : IVec S2x800000 32) : IVec S800000 32 :=
  shapeCast _ (extractStridedSlice S1x800000 ![0, 0] ei slices_S2x800000_S1x800000_0_0) shapeCasts_S1x800000_S800000

def dstOf (ei : IVec S2x800000 32) : IVec S800000 32 :=
  shapeCast _ (extractStridedSlice S1x800000 ![1, 0] ei slices_S2x800000_S1x800000_1_0) shapeCasts_S1x800000_S800000

def ewOf0 (a : FVec F S3x16x128 .f32) : FVec F S16x128 .f32 :=
  shapeCast _ (extractStridedSlice S1x16x128 ![0, 0, 0] a slices_S3x16x128_S1x16x128_0_0_0) shapeCasts_S1x16x128_S16x128

def ebOf0 (a : FVec F S3x128 .f32) : FVec F S128 .f32 :=
  shapeCast _ (extractStridedSlice S1x128 ![0, 0] a slices_S3x128_S1x128_0_0) shapeCasts_S1x128_S128

def w1Of0 (a : FVec F S3x128x256 .f32) : FVec F S128x256 .f32 :=
  shapeCast _ (extractStridedSlice S1x128x256 ![0, 0, 0] a slices_S3x128x256_S1x128x256_0_0_0) shapeCasts_S1x128x256_S128x256

def b1Of0 (a : FVec F S3x256 .f32) : FVec F S256 .f32 :=
  shapeCast _ (extractStridedSlice S1x256 ![0, 0] a slices_S3x256_S1x256_0_0) shapeCasts_S1x256_S256

def w2Of0 (a : FVec F S3x256x128 .f32) : FVec F S256x128 .f32 :=
  shapeCast _ (extractStridedSlice S1x256x128 ![0, 0, 0] a slices_S3x256x128_S1x256x128_0_0_0) shapeCasts_S1x256x128_S256x128

def b2Of0 (a : FVec F S3x128 .f32) : FVec F S128 .f32 :=
  shapeCast _ (extractStridedSlice S1x128 ![0, 0] a slices_S3x128_S1x128_0_0) shapeCasts_S1x128_S128

def epsOf0 (a : FVec F S3 .f32) : FVec F S_ .f32 :=
  shapeCast _ (extractStridedSlice S1 ![0] a slices_S3_S1_0) shapeCasts_S1_S_

def ewOf1 (a : FVec F S3x16x128 .f32) : FVec F S16x128 .f32 :=
  shapeCast _ (extractStridedSlice S1x16x128 ![1, 0, 0] a slices_S3x16x128_S1x16x128_1_0_0) shapeCasts_S1x16x128_S16x128

def ebOf1 (a : FVec F S3x128 .f32) : FVec F S128 .f32 :=
  shapeCast _ (extractStridedSlice S1x128 ![1, 0] a slices_S3x128_S1x128_1_0) shapeCasts_S1x128_S128

def w1Of1 (a : FVec F S3x128x256 .f32) : FVec F S128x256 .f32 :=
  shapeCast _ (extractStridedSlice S1x128x256 ![1, 0, 0] a slices_S3x128x256_S1x128x256_1_0_0) shapeCasts_S1x128x256_S128x256

def b1Of1 (a : FVec F S3x256 .f32) : FVec F S256 .f32 :=
  shapeCast _ (extractStridedSlice S1x256 ![1, 0] a slices_S3x256_S1x256_1_0) shapeCasts_S1x256_S256

def w2Of1 (a : FVec F S3x256x128 .f32) : FVec F S256x128 .f32 :=
  shapeCast _ (extractStridedSlice S1x256x128 ![1, 0, 0] a slices_S3x256x128_S1x256x128_1_0_0) shapeCasts_S1x256x128_S256x128

def b2Of1 (a : FVec F S3x128 .f32) : FVec F S128 .f32 :=
  shapeCast _ (extractStridedSlice S1x128 ![1, 0] a slices_S3x128_S1x128_1_0) shapeCasts_S1x128_S128

def epsOf1 (a : FVec F S3 .f32) : FVec F S_ .f32 :=
  shapeCast _ (extractStridedSlice S1 ![1] a slices_S3_S1_1) shapeCasts_S1_S_

def ewOf2 (a : FVec F S3x16x128 .f32) : FVec F S16x128 .f32 :=
  shapeCast _ (extractStridedSlice S1x16x128 ![2, 0, 0] a slices_S3x16x128_S1x16x128_2_0_0) shapeCasts_S1x16x128_S16x128

def ebOf2 (a : FVec F S3x128 .f32) : FVec F S128 .f32 :=
  shapeCast _ (extractStridedSlice S1x128 ![2, 0] a slices_S3x128_S1x128_2_0) shapeCasts_S1x128_S128

def w1Of2 (a : FVec F S3x128x256 .f32) : FVec F S128x256 .f32 :=
  shapeCast _ (extractStridedSlice S1x128x256 ![2, 0, 0] a slices_S3x128x256_S1x128x256_2_0_0) shapeCasts_S1x128x256_S128x256

def b1Of2 (a : FVec F S3x256 .f32) : FVec F S256 .f32 :=
  shapeCast _ (extractStridedSlice S1x256 ![2, 0] a slices_S3x256_S1x256_2_0) shapeCasts_S1x256_S256

def w2Of2 (a : FVec F S3x256x128 .f32) : FVec F S256x128 .f32 :=
  shapeCast _ (extractStridedSlice S1x256x128 ![2, 0, 0] a slices_S3x256x128_S1x256x128_2_0_0) shapeCasts_S1x256x128_S256x128

def b2Of2 (a : FVec F S3x128 .f32) : FVec F S128 .f32 :=
  shapeCast _ (extractStridedSlice S1x128 ![2, 0] a slices_S3x128_S1x128_2_0) shapeCasts_S1x128_S128

def epsOf2 (a : FVec F S3 .f32) : FVec F S_ .f32 :=
  shapeCast _ (extractStridedSlice S1 ![2] a slices_S3_S1_2) shapeCasts_S1_S_

def layer (h : FVec F S50000x128 .f32) (ei : IVec S2x800000 32) (ea : FVec F S800000x16 .f32) (ew : FVec F S16x128 .f32) (eb : FVec F S128 .f32)
    (e0 : FVec F S_ .f32) (w1 : FVec F S128x256 .f32) (b1 : FVec F S256 .f32) (w2 : FVec F S256x128 .f32) (b2 : FVec F S128 .f32) : FVec F S50000x128 .f32 :=
  upd h (agg (dstOf ei) (msg (Host.gather gather_S50000x128_S800000x1_S800000x128_1_0_n_n_0_1_1128 h (wrapIdx (srcOf ei))) ea ew (rowBias128 eb))) e0 w1 (rowBias256 b1) w2 (rowBias128 b2)

def netH0 (x : FVec F S50000x128 .f32) (ei : IVec S2x800000 32) (ea : FVec F S800000x16 .f32)
    (encw : FVec F S128x128 .f32) (encb : FVec F S128 .f32) (ew3 : FVec F S3x16x128 .f32) (eb3 : FVec F S3x128 .f32)
    (w13 : FVec F S3x128x256 .f32) (b13 : FVec F S3x256 .f32) (w23 : FVec F S3x256x128 .f32) (b23 : FVec F S3x128 .f32)
    (eps3 : FVec F S3 .f32) (ow : FVec F S512x128 .f32) (ob : FVec F S128 .f32) : FVec F S50000x128 .f32 :=
  enc x encw (rowBias128 encb)

def netH1 (x : FVec F S50000x128 .f32) (ei : IVec S2x800000 32) (ea : FVec F S800000x16 .f32)
    (encw : FVec F S128x128 .f32) (encb : FVec F S128 .f32) (ew3 : FVec F S3x16x128 .f32) (eb3 : FVec F S3x128 .f32)
    (w13 : FVec F S3x128x256 .f32) (b13 : FVec F S3x256 .f32) (w23 : FVec F S3x256x128 .f32) (b23 : FVec F S3x128 .f32)
    (eps3 : FVec F S3 .f32) (ow : FVec F S512x128 .f32) (ob : FVec F S128 .f32) : FVec F S50000x128 .f32 :=
  layer (netH0 x ei ea encw encb ew3 eb3 w13 b13 w23 b23 eps3 ow ob) ei ea (ewOf0 ew3) (ebOf0 eb3) (epsOf0 eps3) (w1Of0 w13) (b1Of0 b13) (w2Of0 w23) (b2Of0 b23)

def netH2 (x : FVec F S50000x128 .f32) (ei : IVec S2x800000 32) (ea : FVec F S800000x16 .f32)
    (encw : FVec F S128x128 .f32) (encb : FVec F S128 .f32) (ew3 : FVec F S3x16x128 .f32) (eb3 : FVec F S3x128 .f32)
    (w13 : FVec F S3x128x256 .f32) (b13 : FVec F S3x256 .f32) (w23 : FVec F S3x256x128 .f32) (b23 : FVec F S3x128 .f32)
    (eps3 : FVec F S3 .f32) (ow : FVec F S512x128 .f32) (ob : FVec F S128 .f32) : FVec F S50000x128 .f32 :=
  layer (netH1 x ei ea encw encb ew3 eb3 w13 b13 w23 b23 eps3 ow ob) ei ea (ewOf1 ew3) (ebOf1 eb3) (epsOf1 eps3) (w1Of1 w13) (b1Of1 b13) (w2Of1 w23) (b2Of1 b23)

def netH3 (x : FVec F S50000x128 .f32) (ei : IVec S2x800000 32) (ea : FVec F S800000x16 .f32)
    (encw : FVec F S128x128 .f32) (encb : FVec F S128 .f32) (ew3 : FVec F S3x16x128 .f32) (eb3 : FVec F S3x128 .f32)
    (w13 : FVec F S3x128x256 .f32) (b13 : FVec F S3x256 .f32) (w23 : FVec F S3x256x128 .f32) (b23 : FVec F S3x128 .f32)
    (eps3 : FVec F S3 .f32) (ow : FVec F S512x128 .f32) (ob : FVec F S128 .f32) : FVec F S50000x128 .f32 :=
  layer (netH2 x ei ea encw encb ew3 eb3 w13 b13 w23 b23 eps3 ow ob) ei ea (ewOf2 ew3) (ebOf2 eb3) (epsOf2 eps3) (w1Of2 w13) (b1Of2 b13) (w2Of2 w23) (b2Of2 b23)

def net (x : FVec F S50000x128 .f32) (ei : IVec S2x800000 32) (ea : FVec F S800000x16 .f32)
    (encw : FVec F S128x128 .f32) (encb : FVec F S128 .f32) (ew3 : FVec F S3x16x128 .f32) (eb3 : FVec F S3x128 .f32)
    (w13 : FVec F S3x128x256 .f32) (b13 : FVec F S3x256 .f32) (w23 : FVec F S3x256x128 .f32) (b23 : FVec F S3x128 .f32)
    (eps3 : FVec F S3 .f32) (ow : FVec F S512x128 .f32) (ob : FVec F S128 .f32) : FVec F S50000x128 .f32 :=
  outp (netH0 x ei ea encw encb ew3 eb3 w13 b13 w23 b23 eps3 ow ob) (netH1 x ei ea encw encb ew3 eb3 w13 b13 w23 b23 eps3 ow ob) (netH2 x ei ea encw encb ew3 eb3 w13 b13 w23 b23 eps3 ow ob) (netH3 x ei ea encw encb ew3 eb3 w13 b13 w23 b23 eps3 ow ob) ow (rowBias128 ob)

set_option maxRecDepth 8192 in
set_option maxHeartbeats 4000000 in

theorem res_eq (m : (ℓ : Loc nD τ sig) → Buf (Elt F) ℓ) (c : Dev nD) :
    Cert.ReferenceIdeal.Value.res_main_v144 (F := F) m c =
      net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
        (m ((c.tc : Thread nD τ).loc main_arg10)) (m ((c.tc : Thread nD τ).loc main_arg11)) (m ((c.tc : Thread nD τ).loc main_arg12)) (m ((c.tc : Thread nD τ).loc main_arg13)) := by
  unfold Cert.ReferenceIdeal.Value.res_main_v144
  rfl

end Stages

section AtIdeal

open Idealize.ShloMosaic.ValueIdx

theorem rowBcast128_50000_apply {α : Type} (b : S1x128.Idx → α) (i : Fin 50000) (j : Fin 128) :
    broadcastInDim S50000x128 ![0, 1] bcast_S1x128_S50000x128_0_1 b (ix2 i j) = b (ix2 0 j) :=
  broadcastInDim_apply _ bcast_S1x128_S50000x128_0_1 b (ix2 i j) (ix2 0 j) (fun c => match c with
    | ⟨0, _⟩ => by show 0 = if (1 : Nat) = 1 then 0 else i.val; rw [if_pos rfl]
    | ⟨1, _⟩ => by show j.val = if (128 : Nat) = 1 then 0 else j.val; rw [if_neg (by decide)])

theorem rowBcast128_800000_apply {α : Type} (b : S1x128.Idx → α) (i : Fin 800000) (j : Fin 128) :
    broadcastInDim S800000x128 ![0, 1] bcast_S1x128_S800000x128_0_1 b (ix2 i j) = b (ix2 0 j) :=
  broadcastInDim_apply _ bcast_S1x128_S800000x128_0_1 b (ix2 i j) (ix2 0 j) (fun c => match c with
    | ⟨0, _⟩ => by show 0 = if (1 : Nat) = 1 then 0 else i.val; rw [if_pos rfl]
    | ⟨1, _⟩ => by show j.val = if (128 : Nat) = 1 then 0 else j.val; rw [if_neg (by decide)])

theorem rowBcast256_50000_apply {α : Type} (b : S1x256.Idx → α) (i : Fin 50000) (j : Fin 256) :
    broadcastInDim S50000x256 ![0, 1] bcast_S1x256_S50000x256_0_1 b (ix2 i j) = b (ix2 0 j) :=
  broadcastInDim_apply _ bcast_S1x256_S50000x256_0_1 b (ix2 i j) (ix2 0 j) (fun c => match c with
    | ⟨0, _⟩ => by show 0 = if (1 : Nat) = 1 then 0 else i.val; rw [if_pos rfl]
    | ⟨1, _⟩ => by show j.val = if (256 : Nat) = 1 then 0 else j.val; rw [if_neg (by decide)])

theorem dotEnc_apply (a : FVec Ideal S50000x128 .f32) (b : FVec Ideal S128x128 .f32) (i : Fin 50000) (j : Fin 128) :
    Host.dotGeneral dot_S50000x128_S128x128_S50000x128_1_0_0_1_n_n none a b (ix2 i j) = ∑ k : Fin 128, a (ix2 i k) * b (ix2 k j) :=
  Cert.Hand.PlainDot.dotGeneral_apply _ rfl a b i j

theorem dotMsg_apply (a : FVec Ideal S800000x16 .f32) (b : FVec Ideal S16x128 .f32) (i : Fin 800000) (j : Fin 128) :
    Host.dotGeneral dot_S800000x16_S16x128_S800000x128_1_0_0_1_n_n none a b (ix2 i j) = ∑ k : Fin 16, a (ix2 i k) * b (ix2 k j) :=
  Cert.Hand.PlainDot.dotGeneral_apply _ rfl a b i j

theorem dotUpd1_apply (a : FVec Ideal S50000x128 .f32) (b : FVec Ideal S128x256 .f32) (i : Fin 50000) (j : Fin 256) :
    Host.dotGeneral dot_S50000x128_S128x256_S50000x256_1_0_0_1_n_n none a b (ix2 i j) = ∑ k : Fin 128, a (ix2 i k) * b (ix2 k j) :=
  Cert.Hand.PlainDot.dotGeneral_apply _ rfl a b i j

theorem dotUpd2_apply (a : FVec Ideal S50000x256 .f32) (b : FVec Ideal S256x128 .f32) (i : Fin 50000) (j : Fin 128) :
    Host.dotGeneral dot_S50000x256_S256x128_S50000x128_1_0_0_1_n_n none a b (ix2 i j) = ∑ k : Fin 256, a (ix2 i k) * b (ix2 k j) :=
  Cert.Hand.PlainDot.dotGeneral_apply _ rfl a b i j

theorem dotOut_apply (a : FVec Ideal S50000x512 .f32) (b : FVec Ideal S512x128 .f32) (i : Fin 50000) (j : Fin 128) :
    Host.dotGeneral dot_S50000x512_S512x128_S50000x128_1_0_0_1_n_n none a b (ix2 i j) = ∑ k : Fin 512, a (ix2 i k) * b (ix2 k j) :=
  Cert.Hand.PlainDot.dotGeneral_apply _ rfl a b i j

theorem enc_apply (x : FVec Ideal S50000x128 .f32) (w : FVec Ideal S128x128 .f32) (b2 : FVec Ideal S1x128 .f32)
    (i : Fin 50000) (j : Fin 128) :
    enc (F := Ideal) x w b2 (ix2 i j) = (∑ k : Fin 128, x (ix2 i k) * w (ix2 k j)) + b2 (ix2 0 j) := by
  unfold enc
  rw [addf_apply, dotEnc_apply, rowBcast128_50000_apply]

theorem msg_apply (hsrc : FVec Ideal S800000x128 .f32) (ea : FVec Ideal S800000x16 .f32) (ew : FVec Ideal S16x128 .f32)
    (eb2 : FVec Ideal S1x128 .f32) (e : Fin 800000) (j : Fin 128) :
    msg (F := Ideal) hsrc ea ew eb2 (ix2 e j) =
      max (hsrc (ix2 e j) + ((∑ k : Fin 16, ea (ix2 e k) * ew (ix2 k j)) + eb2 (ix2 0 j))) 0 := by
  unfold msg
  rw [maximumf_apply, addf_apply, addf_apply, dotMsg_apply, rowBcast128_800000_apply, broadcastInDim_scalar_apply,
    constant_apply, Ideal.ofBits_zero_f32]

theorem upd_apply_word (h a : FVec Ideal S50000x128 .f32) (e0 : FVec Ideal S_ .f32) (w1 : FVec Ideal S128x256 .f32)
    (b1 : FVec Ideal S1x256 .f32) (w2 : FVec Ideal S256x128 .f32) (b2 : FVec Ideal S1x128 .f32) (i : Fin 50000) (j : Fin 128) :
    upd (F := Ideal) h a e0 w1 b1 w2 b2 (ix2 i j) =
      max ((∑ q : Fin 256, (max ((∑ k : Fin 128, ((Ideal.ofBits .f32 0x3F800000#32 + e0 ix0) * h (ix2 i k) + a (ix2 i k)) * w1 (ix2 k q)) + b1 (ix2 0 q)) 0) * w2 (ix2 q j)) + b2 (ix2 0 j)) 0 := by
  unfold upd
  rw [maximumf_apply, addf_apply, dotUpd2_apply, rowBcast128_50000_apply, broadcastInDim_scalar_apply, constant_apply,
    Ideal.ofBits_zero_f32]
  refine congrArg (fun s => max (s + b2 (ix2 0 j)) 0) (Finset.sum_congr rfl fun q _ => ?_)
  rw [maximumf_apply, addf_apply, dotUpd1_apply, rowBcast256_50000_apply, broadcastInDim_scalar_apply, constant_apply,
    Ideal.ofBits_zero_f32]
  refine congrArg (fun s => max (s + b1 (ix2 0 q)) 0 * w2 (ix2 q j)) (Finset.sum_congr rfl fun k _ => ?_)
  rw [addf_apply, mulf_apply, broadcastInDim_scalar_apply, addf_apply, constant_apply]

theorem upd_apply (h a : FVec Ideal S50000x128 .f32) (e0 : FVec Ideal S_ .f32) (w1 : FVec Ideal S128x256 .f32)
    (b1 : FVec Ideal S1x256 .f32) (w2 : FVec Ideal S256x128 .f32) (b2 : FVec Ideal S1x128 .f32) (i : Fin 50000) (j : Fin 128) :
    upd (F := Ideal) h a e0 w1 b1 w2 b2 (ix2 i j) =
      max ((∑ q : Fin 256, (max ((∑ k : Fin 128, ((1 + e0 ix0) * h (ix2 i k) + a (ix2 i k)) * w1 (ix2 k q)) + b1 (ix2 0 q)) 0) * w2 (ix2 q j)) + b2 (ix2 0 j)) 0 := by
  rw [upd_apply_word, Ideal.ofBits_one_f32]

theorem outpCat_apply (cat : FVec Ideal S50000x512 .f32) (ow : FVec Ideal S512x128 .f32) (ob2 : FVec Ideal S1x128 .f32)
    (i : Fin 50000) (j : Fin 128) :
    outpCat (F := Ideal) cat ow ob2 (ix2 i j) = (∑ k : Fin 512, cat (ix2 i k) * ow (ix2 k j)) + ob2 (ix2 0 j) := by
  unfold outpCat
  rw [addf_apply, dotOut_apply, rowBcast128_50000_apply]

end AtIdeal

end Cert.ReferenceIdeal.Stage

end
-- ==== Proof.KernelIdeal.Match.lean ====
import proofs.«404173_j463856468344_1_alg».proof.Proof.KernelIdeal.Val0
import proofs.«404173_j463856468344_1_alg».proof.Proof.KernelIdeal.Val1
import proofs.«404173_j463856468344_1_alg».proof.Proof.KernelIdeal.Val2
import proofs.«404173_j463856468344_1_alg».proof.Proof.KernelIdeal.Val3
import proofs.«404173_j463856468344_1_alg».proof.Proof.KernelIdeal.Val4
import proofs.«404173_j463856468344_1_alg».proof.Proof.KernelIdeal.Val5
import proofs.«404173_j463856468344_1_alg».proof.Proof.KernelIdeal.Val6
import proofs.«404173_j463856468344_1_alg».proof.Proof.KernelIdeal.Val7
import proofs.«404173_j463856468344_1_alg».proof.Proof.RefStages
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx
open Idealize.SL.Sem

variable (V : (c : Dev nD) → (b : Ref sig .tc) → Buf (Elt Ideal) ((c : Thread nD τ).loc b))

-- two arrays of rank 2 are equal when they agree at every pair of coordinates
theorem ext_ix2 {n0 n1 : Nat} {α : Type} {A B : (⟨2, ![n0, n1]⟩ : Shape).Idx → α} (H : ∀ i j, A (ix2 i j) = B (ix2 i j)) : A = B :=
  funext fun x => (congrArg A (eq_ix2 x)).trans ((H _ _).trans (congrArg B (eq_ix2 x)).symm)

theorem match0 (c : Dev nD) :
    (dat0 (F := Ideal) V c).arrAt 3 cfg0.N
      = Cert.ReferenceIdeal.Stage.enc (F := Ideal) (Val0.xarr0 V c) (Val0.warr0 V c) (Val0.barr0 V c) :=
  ext_ix2 fun i j => (Val0.value0_apply V c i j).trans (Cert.ReferenceIdeal.Stage.enc_apply _ _ _ i j).symm

theorem match1 (c : Dev nD) :
    (dat1 (F := Ideal) V c).arrAt 4 cfg1.N
      = Cert.ReferenceIdeal.Stage.msg (F := Ideal) (Val1.harr1 V c) (Val1.aarr1 V c) (Val1.warr1 V c) (Val1.barr1 V c) :=
  ext_ix2 fun i j => (Val1.value1_apply V c i j).trans (Cert.ReferenceIdeal.Stage.msg_apply _ _ _ _ i j).symm

theorem match2 (c : Dev nD) (e0 : FVec Ideal Cert.ReferenceIdeal.S_ .f32) (he : Val2.earr2 V c (ix2 0 0) = e0 ix0) :
    (dat2 (F := Ideal) V c).arrAt 7 cfg2.N
      = Cert.ReferenceIdeal.Stage.upd (F := Ideal) (Val2.harr2 V c) (Val2.garr2 V c) e0 (Val2.w1arr2 V c) (Val2.b1arr2 V c) (Val2.w2arr2 V c) (Val2.b2arr2 V c) :=
  ext_ix2 fun i j => (Val2.value2_apply V c i j).trans (by rw [he]; exact (Cert.ReferenceIdeal.Stage.upd_apply_word _ _ e0 _ _ _ _ i j).symm)

theorem match3 (c : Dev nD) :
    (dat3 (F := Ideal) V c).arrAt 4 cfg3.N
      = Cert.ReferenceIdeal.Stage.msg (F := Ideal) (Val3.harr3 V c) (Val3.aarr3 V c) (Val3.warr3 V c) (Val3.barr3 V c) :=
  ext_ix2 fun i j => (Val3.value3_apply V c i j).trans (Cert.ReferenceIdeal.Stage.msg_apply _ _ _ _ i j).symm

theorem match4 (c : Dev nD) (e0 : FVec Ideal Cert.ReferenceIdeal.S_ .f32) (he : Val4.earr4 V c (ix2 0 0) = e0 ix0) :
    (dat4 (F := Ideal) V c).arrAt 7 cfg4.N
      = Cert.ReferenceIdeal.Stage.upd (F := Ideal) (Val4.harr4 V c) (Val4.garr4 V c) e0 (Val4.w1arr4 V c) (Val4.b1arr4 V c) (Val4.w2arr4 V c) (Val4.b2arr4 V c) :=
  ext_ix2 fun i j => (Val4.value4_apply V c i j).trans (by rw [he]; exact (Cert.ReferenceIdeal.Stage.upd_apply_word _ _ e0 _ _ _ _ i j).symm)

theorem match5 (c : Dev nD) :
    (dat5 (F := Ideal) V c).arrAt 4 cfg5.N
      = Cert.ReferenceIdeal.Stage.msg (F := Ideal) (Val5.harr5 V c) (Val5.aarr5 V c) (Val5.warr5 V c) (Val5.barr5 V c) :=
  ext_ix2 fun i j => (Val5.value5_apply V c i j).trans (Cert.ReferenceIdeal.Stage.msg_apply _ _ _ _ i j).symm

theorem match6 (c : Dev nD) (e0 : FVec Ideal Cert.ReferenceIdeal.S_ .f32) (he : Val6.earr6 V c (ix2 0 0) = e0 ix0) :
    (dat6 (F := Ideal) V c).arrAt 7 cfg6.N
      = Cert.ReferenceIdeal.Stage.upd (F := Ideal) (Val6.harr6 V c) (Val6.garr6 V c) e0 (Val6.w1arr6 V c) (Val6.b1arr6 V c) (Val6.w2arr6 V c) (Val6.b2arr6 V c) :=
  ext_ix2 fun i j => (Val6.value6_apply V c i j).trans (by rw [he]; exact (Cert.ReferenceIdeal.Stage.upd_apply_word _ _ e0 _ _ _ _ i j).symm)

theorem match7 (c : Dev nD) :
    (dat7 (F := Ideal) V c).arrAt 3 cfg7.N
      = Cert.ReferenceIdeal.Stage.outpCat (F := Ideal) (Val7.xarr7 V c) (Val7.warr7 V c) (Val7.barr7 V c) :=
  ext_ix2 fun i j => (Val7.value7_apply V c i j).trans (Cert.ReferenceIdeal.Stage.outpCat_apply _ _ _ i j).symm

end Cert.KernelIdeal.Hand

end
-- ==== Proof.SrcRange.lean ====
import proofs.«404173_j463856468344_1_alg».proof.KernelIdeal
import proofs.«404173_j463856468344_1_alg».proof.Pre_finite_inputs
import proofs.«404173_j463856468344_1_alg».proof.Proof.Gen.Pre_finite_inputs
import Idealize.ShloMosaic.Lib.ReduceAll
import Idealize.ShloMosaic.Lib.Affine
import Idealize.ShloMosaic.Lib.ValueIdx

noncomputable section

namespace Cert.Hand.SrcRange

open Idealize.ShloMosaic

def wrap (x : BitVec 32) : BitVec 32 :=
  Scalar.select (IntOp.cmpi .slt x 0#32) (IntOp.addi x 50000#32) x

theorem toInt_zero32 : (0#32 : BitVec 32).toInt = 0 := by decide
theorem toInt_50000 : (50000#32 : BitVec 32).toInt = 50000 := by decide
theorem toInt_49999 : (49999#32 : BitVec 32).toInt = 49999 := by decide
theorem toInt_neg50000 : (4294917296#32 : BitVec 32).toInt = -50000 := by decide

theorem wrap_toInt (x : BitVec 32) (h0 : (-50000 : Int) ≤ x.toInt) (h1 : x.toInt < 50000) :
    0 ≤ (wrap x).toInt ∧ (wrap x).toInt ≤ 49999 := by
  unfold wrap Scalar.select
  by_cases hc : IntOp.cmpi .slt x 0#32 = 1#1
  · have hc' : IntOp.cmpi .slt x 0#32 = 1 := hc
    rw [if_pos hc']
    rw [IntOp.cmpi_slt, toInt_zero32] at hc
    rw [IntOp.addi, BitVec.toInt_add, toInt_50000, Int.bmod_eq_of_le (by omega) (by omega)]
    omega
  · have hc' : ¬ IntOp.cmpi .slt x 0#32 = 1 := hc
    rw [if_neg hc']
    rw [IntOp.cmpi_slt, toInt_zero32] at hc
    omega

theorem wrap_sge (x : BitVec 32) (h0 : (-50000 : Int) ≤ x.toInt) (h1 : x.toInt < 50000) :
    IntOp.cmpi .sge (wrap x) 0#32 = 1#1 := by
  rw [IntOp.cmpi_sge, toInt_zero32]; exact (wrap_toInt x h0 h1).1

theorem wrap_sle (x : BitVec 32) (h0 : (-50000 : Int) ≤ x.toInt) (h1 : x.toInt < 50000) :
    IntOp.cmpi .sle (wrap x) 49999#32 = 1#1 := by
  rw [IntOp.cmpi_sle, toInt_49999]; exact (wrap_toInt x h0 h1).2

section Pre

open Cert.Pre_finite_inputs Cert.Pre_finite_inputs.Facts

variable [Cert.Pre_finite_inputs.Facts] {F : FTy → Type} [FloatOps F]

def src (a1 : IVec Cert.Pre_finite_inputs.S2x800000 32) : IVec Cert.Pre_finite_inputs.S800000 32 :=
  shapeCast Cert.Pre_finite_inputs.S800000
    (extractStridedSlice Cert.Pre_finite_inputs.S1x800000 ![0, 0] a1 slices_S2x800000_S1x800000_0_0)
    shapeCasts_S1x800000_S800000

theorem src_range (a0 : FVec F Cert.Pre_finite_inputs.S50000x128 .f32) (a1 : IVec Cert.Pre_finite_inputs.S2x800000 32)
    (a2 : FVec F Cert.Pre_finite_inputs.S800000x16 .f32) (a3 : FVec F Cert.Pre_finite_inputs.S128x128 .f32)
    (a4 : FVec F Cert.Pre_finite_inputs.S128 .f32) (a5 : FVec F Cert.Pre_finite_inputs.S3x16x128 .f32)
    (a6 : FVec F Cert.Pre_finite_inputs.S3x128 .f32) (a7 : FVec F Cert.Pre_finite_inputs.S3x128x256 .f32)
    (a8 : FVec F Cert.Pre_finite_inputs.S3x256 .f32) (a9 : FVec F Cert.Pre_finite_inputs.S3x256x128 .f32)
    (a10 : FVec F Cert.Pre_finite_inputs.S3x128 .f32) (a11 : FVec F Cert.Pre_finite_inputs.S3 .f32)
    (a12 : FVec F Cert.Pre_finite_inputs.S512x128 .f32) (a13 : FVec F Cert.Pre_finite_inputs.S128 .f32)
    (h : Cert.Pre_finite_inputs.fn (F := F) a0 a1 a2 a3 a4 a5 a6 a7 a8 a9 a10 a11 a12 a13 = (fun _ => 1#1))
    (e : Cert.Pre_finite_inputs.S800000.Idx) :
    (-50000 : Int) ≤ (src a1 e).toInt ∧ (src a1 e).toInt < 50000 := by
  haveI : Subsingleton Cert.Pre_finite_inputs.S_.Idx := ⟨fun a b => funext fun d => d.elim0⟩
  have h0 := congrFun h ValueIdx.ix0
  dsimp only [Cert.Pre_finite_inputs.fn, fn_part1, fn_part2, fn_part3, fn_part4] at h0
  have h1 := (IntOp.andi_eq_one.1 h0).2
  have h2 := Host.reduce_andi_all _ _ _ _ _ h1 e
  obtain ⟨hge, hlt⟩ := IntOp.andi_eq_one.1 h2
  have hge' : (4294917296#32 : BitVec 32).toInt ≤ (src a1 e).toInt := IntOp.cmpi_sge.1 hge
  have hlt' : (src a1 e).toInt < (50000#32 : BitVec 32).toInt := IntOp.cmpi_slt.1 hlt
  rw [toInt_neg50000] at hge'
  rw [toInt_50000] at hlt'
  exact ⟨hge', hlt'⟩

end Pre

theorem foldl_andi_ones {ι : Type} (f : ι → BitVec 1) (hf : ∀ n, f n = 1#1) :
    ∀ l : List ι, l.foldl (fun r n => IntOp.andi r (f n)) 1#1 = 1#1
  | [] => rfl
  | a :: l => by
    have one : IntOp.andi 1#1 1#1 = 1#1 := by decide
    rw [List.foldl_cons, hf a, one]
    exact foldl_andi_ones f hf l

theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_ones x hx _

section Take

open Cert.KernelIdeal Cert.KernelIdeal.Facts₀ Cert.KernelIdeal.Facts

variable [Cert.KernelIdeal.Facts] {F : FTy → Type} [FloatOps F]

def idx (src : IVec Cert.KernelIdeal.S800000 32) : IVec Cert.KernelIdeal.S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

theorem idx_apply (src : IVec Cert.KernelIdeal.S800000 32) (i : Cert.KernelIdeal.S800000x1.Idx) :
    ∃ e : Cert.KernelIdeal.S800000.Idx, idx src i = wrap (src e) := ⟨_, rfl⟩

def guard (src : IVec Cert.KernelIdeal.S800000 32) : IVec Cert.KernelIdeal.S800000 1 :=
  (fun x v => Host.reduce IntOp.andi x v reducesTo_S800000x1_S800000_d1 h_S_)
    (andi (cmpi .sge (idx src) (broadcastInDim S800000x1 ![] bcast_S_S800000x1 (constantI S_ 32 0#32)))
      (cmpi .sle (idx src) (broadcastInDim S800000x1 ![0, 1] bcast_S1x1_S800000x1_0_1
        (broadcastInDim S1x1 ![1] bcast_S1_S1x1_1 (constantI S1 32 49999#32)))))
    (constantI S_ 1 1#1)

theorem guard_elem (src : IVec Cert.KernelIdeal.S800000 32)
    (hs : ∀ e, (-50000 : Int) ≤ (src e).toInt ∧ (src e).toInt < 50000) (i : Cert.KernelIdeal.S800000x1.Idx) :
    (andi (cmpi .sge (idx src) (broadcastInDim S800000x1 ![] bcast_S_S800000x1 (constantI S_ 32 0#32)))
      (cmpi .sle (idx src) (broadcastInDim S800000x1 ![0, 1] bcast_S1x1_S800000x1_0_1
        (broadcastInDim S1x1 ![1] bcast_S1_S1x1_1 (constantI S1 32 49999#32))))) i = 1#1 := by
  refine (idx_apply src i).elim fun e' he' => ?_
  show IntOp.andi (IntOp.cmpi .sge (idx src i) 0#32) (IntOp.cmpi .sle (idx src i) 49999#32) = 1#1
  rw [he', wrap_sge _ (hs e').1 (hs e').2, wrap_sle _ (hs e').1 (hs e').2]
  decide

theorem guard_eq_one (src : IVec Cert.KernelIdeal.S800000 32)
    (hs : ∀ e, (-50000 : Int) ≤ (src e).toInt ∧ (src e).toInt < 50000) (e : Cert.KernelIdeal.S800000.Idx) :
    guard src e = 1#1 := by
  unfold guard
  exact reduce_andi_ones (s := S800000x1) (t := S800000) (u := S_) (axes := [1]) _ _
    reducesTo_S800000x1_S800000_d1 h_S_ (guard_elem src hs) (fun _ => rfl) e

theorem mask_eq_one (src : IVec Cert.KernelIdeal.S800000 32)
    (hs : ∀ e, (-50000 : Int) ≤ (src e).toInt ∧ (src e).toInt < 50000) (j : Cert.KernelIdeal.S800000x128.Idx) :
    broadcastInDim S800000x128 ![0] bcast_S800000_S800000x128_0 (guard src) j = 1 :=
  guard_eq_one src hs _

def take (h : FVec F Cert.KernelIdeal.S50000x128 .f32) (src : IVec Cert.KernelIdeal.S800000 32) :=
  select (broadcastInDim S800000x128 ![0] bcast_S800000_S800000x128_0 (guard src))
    (Host.gather gather_S50000x128_S800000x1_S800000x128_1_0_n_n_0_1_1128 h (idx src))
    (broadcastInDim S800000x128 ![] bcast_S_S800000x128 (constant S_ .f32 0x7FC00000#32))

-- Every source index in range makes the range mask all ones, so the masked lookup is the plain gather.
theorem take_eq_gather (h : FVec F Cert.KernelIdeal.S50000x128 .f32) (src : IVec Cert.KernelIdeal.S800000 32)
    (hs : ∀ e, (-50000 : Int) ≤ (src e).toInt ∧ (src e).toInt < 50000) :
    take h src = Host.gather gather_S50000x128_S800000x1_S800000x128_1_0_n_n_0_1_1128 h (idx src) := by
  funext j
  have hm := mask_eq_one src hs j
  unfold take select Scalar.select
  exact if_pos hm

end Take

section Bridge

variable [Cert.Pre_finite_inputs.Facts] [Cert.KernelIdeal.Facts] {F : FTy → Type} [FloatOps F]

def ksrc (a1 : IVec Cert.KernelIdeal.S2x800000 32) : IVec Cert.KernelIdeal.S800000 32 :=
  shapeCast Cert.KernelIdeal.S800000
    ((extractStridedSlice Cert.KernelIdeal.S1x800000 ![0, 0] · Cert.KernelIdeal.Facts₀.slices_S2x800000_S1x800000_0_0) a1)
    Cert.KernelIdeal.Facts₀.shapeCasts_S1x800000_S800000

theorem ksrc_range (a0 : FVec F Cert.Pre_finite_inputs.S50000x128 .f32) (a1 : IVec Cert.Pre_finite_inputs.S2x800000 32)
    (a2 : FVec F Cert.Pre_finite_inputs.S800000x16 .f32) (a3 : FVec F Cert.Pre_finite_inputs.S128x128 .f32)
    (a4 : FVec F Cert.Pre_finite_inputs.S128 .f32) (a5 : FVec F Cert.Pre_finite_inputs.S3x16x128 .f32)
    (a6 : FVec F Cert.Pre_finite_inputs.S3x128 .f32) (a7 : FVec F Cert.Pre_finite_inputs.S3x128x256 .f32)
    (a8 : FVec F Cert.Pre_finite_inputs.S3x256 .f32) (a9 : FVec F Cert.Pre_finite_inputs.S3x256x128 .f32)
    (a10 : FVec F Cert.Pre_finite_inputs.S3x128 .f32) (a11 : FVec F Cert.Pre_finite_inputs.S3 .f32)
    (a12 : FVec F Cert.Pre_finite_inputs.S512x128 .f32) (a13 : FVec F Cert.Pre_finite_inputs.S128 .f32)
    (h : Cert.Pre_finite_inputs.fn (F := F) a0 a1 a2 a3 a4 a5 a6 a7 a8 a9 a10 a11 a12 a13 = (fun _ => 1#1))
    (e : Cert.KernelIdeal.S800000.Idx) :
    (-50000 : Int) ≤ (ksrc a1 e).toInt ∧ (ksrc a1 e).toInt < 50000 :=
  src_range a0 a1 a2 a3 a4 a5 a6 a7 a8 a9 a10 a11 a12 a13 h e

end Bridge

end Cert.Hand.SrcRange

end
-- ==== Proof.KernelIdeal.Reads.lean ====
import proofs.«404173_j463856468344_1_alg».proof.Proof.KernelIdeal.ChainTable
import proofs.«404173_j463856468344_1_alg».proof.Proof.SrcRange

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ)

theorem X1_of (c : Dev nD) (r : Ref sig .tc) (h : r ∉ hostOps0_W) : X1 m c r = m ((c.tc : Thread nD τ).loc r) :=
  StableHlo.after_of_writes_sub hostOps0 _ hostOps0_writes h
theorem X3_of (c : Dev nD) (r : Ref sig .tc) (h : r ∉ hostOps1_W) : X3 m c r = X2 m c r := by
  unfold X3; exact StableHlo.after_of_writes_sub hostOps1 _ hostOps1_writes h
theorem X4_of (c : Dev nD) (r : Ref sig .tc) (h : r ∉ hostOps1_1_W) : X4 m c r = X3 m c r := by
  unfold X4; exact StableHlo.after_of_writes_sub hostOps1_1 _ hostOps1_1_writes h
theorem X6_of (c : Dev nD) (r : Ref sig .tc) (h : r ∉ hostOps2_W) : X6 m c r = X5 m c r := by
  unfold X6; exact StableHlo.after_of_writes_sub hostOps2 _ hostOps2_writes h
theorem X8_of (c : Dev nD) (r : Ref sig .tc) (h : r ∉ hostOps3_W) : X8 m c r = X7 m c r := by
  unfold X8; exact StableHlo.after_of_writes_sub hostOps3 _ hostOps3_writes h
theorem X9_of (c : Dev nD) (r : Ref sig .tc) (h : r ∉ hostOps3_1_W) : X9 m c r = X8 m c r := by
  unfold X9; exact StableHlo.after_of_writes_sub hostOps3_1 _ hostOps3_1_writes h
theorem X11_of (c : Dev nD) (r : Ref sig .tc) (h : r ∉ hostOps4_W) : X11 m c r = X10 m c r := by
  unfold X11; exact StableHlo.after_of_writes_sub hostOps4 _ hostOps4_writes h
theorem X13_of (c : Dev nD) (r : Ref sig .tc) (h : r ∉ hostOps5_W) : X13 m c r = X12 m c r := by
  unfold X13; exact StableHlo.after_of_writes_sub hostOps5 _ hostOps5_writes h
theorem X14_of (c : Dev nD) (r : Ref sig .tc) (h : r ∉ hostOps5_1_W) : X14 m c r = X13 m c r := by
  unfold X14; exact StableHlo.after_of_writes_sub hostOps5_1 _ hostOps5_1_writes h
theorem X16_of (c : Dev nD) (r : Ref sig .tc) (h : r ∉ hostOps6_W) : X16 m c r = X15 m c r := by
  unfold X16; exact StableHlo.after_of_writes_sub hostOps6 _ hostOps6_writes h
theorem X18_of (c : Dev nD) (r : Ref sig .tc) (h : r ∉ hostOps7_W) : X18 m c r = X17 m c r := by
  unfold X18; exact StableHlo.after_of_writes_sub hostOps7 _ hostOps7_writes h

abbrev argRefs : List (Ref sig .tc) :=
  [main_arg0, main_arg1, main_arg2, main_arg3, main_arg4, main_arg5, main_arg6, main_arg7, main_arg8, main_arg9, main_arg10,
   main_arg11, main_arg12, main_arg13]

theorem X1_arg (c : Dev nD) (r : Ref sig .tc) (h : r ∈ argRefs) : X1 m c r = m ((c.tc : Thread nD τ).loc r) :=
  X1_of m c r ((by decide : ∀ r ∈ argRefs, r ∉ hostOps0_W) r h)
theorem X2_arg (c : Dev nD) (r : Ref sig .tc) (h : r ∈ argRefs) : X2 m c r = m ((c.tc : Thread nD τ).loc r) :=
  (X2_of_ne m c r ((by decide : ∀ r ∈ argRefs, r ≠ main_v5) r h)).trans (X1_arg m c r h)
theorem X3_arg (c : Dev nD) (r : Ref sig .tc) (h : r ∈ argRefs) : X3 m c r = m ((c.tc : Thread nD τ).loc r) :=
  (X3_of m c r ((by decide : ∀ r ∈ argRefs, r ∉ hostOps1_W) r h)).trans (X2_arg m c r h)
theorem X4_arg (c : Dev nD) (r : Ref sig .tc) (h : r ∈ argRefs) : X4 m c r = m ((c.tc : Thread nD τ).loc r) :=
  (X4_of m c r ((by decide : ∀ r ∈ argRefs, r ∉ hostOps1_1_W) r h)).trans (X3_arg m c r h)
theorem X5_arg (c : Dev nD) (r : Ref sig .tc) (h : r ∈ argRefs) : X5 m c r = m ((c.tc : Thread nD τ).loc r) :=
  (X5_of_ne m c r ((by decide : ∀ r ∈ argRefs, r ≠ main_v12) r h)).trans (X4_arg m c r h)
theorem X6_arg (c : Dev nD) (r : Ref sig .tc) (h : r ∈ argRefs) : X6 m c r = m ((c.tc : Thread nD τ).loc r) :=
  (X6_of m c r ((by decide : ∀ r ∈ argRefs, r ∉ hostOps2_W) r h)).trans (X5_arg m c r h)
theorem X7_arg (c : Dev nD) (r : Ref sig .tc) (h : r ∈ argRefs) : X7 m c r = m ((c.tc : Thread nD τ).loc r) :=
  (X7_of_ne m c r ((by decide : ∀ r ∈ argRefs, r ≠ main_v29) r h)).trans (X6_arg m c r h)
theorem X8_arg (c : Dev nD) (r : Ref sig .tc) (h : r ∈ argRefs) : X8 m c r = m ((c.tc : Thread nD τ).loc r) :=
  (X8_of m c r ((by decide : ∀ r ∈ argRefs, r ∉ hostOps3_W) r h)).trans (X7_arg m c r h)
theorem X9_arg (c : Dev nD) (r : Ref sig .tc) (h : r ∈ argRefs) : X9 m c r = m ((c.tc : Thread nD τ).loc r) :=
  (X9_of m c r ((by decide : ∀ r ∈ argRefs, r ∉ hostOps3_1_W) r h)).trans (X8_arg m c r h)
theorem X10_arg (c : Dev nD) (r : Ref sig .tc) (h : r ∈ argRefs) : X10 m c r = m ((c.tc : Thread nD τ).loc r) :=
  (X10_of_ne m c r ((by decide : ∀ r ∈ argRefs, r ≠ main_v36) r h)).trans (X9_arg m c r h)
theorem X11_arg (c : Dev nD) (r : Ref sig .tc) (h : r ∈ argRefs) : X11 m c r = m ((c.tc : Thread nD τ).loc r) :=
  (X11_of m c r ((by decide : ∀ r ∈ argRefs, r ∉ hostOps4_W) r h)).trans (X10_arg m c r h)
theorem X12_arg (c : Dev nD) (r : Ref sig .tc) (h : r ∈ argRefs) : X12 m c r = m ((c.tc : Thread nD τ).loc r) :=
  (X12_of_ne m c r ((by decide : ∀ r ∈ argRefs, r ≠ main_v53) r h)).trans (X11_arg m c r h)
theorem X13_arg (c : Dev nD) (r : Ref sig .tc) (h : r ∈ argRefs) : X13 m c r = m ((c.tc : Thread nD τ).loc r) :=
  (X13_of m c r ((by decide : ∀ r ∈ argRefs, r ∉ hostOps5_W) r h)).trans (X12_arg m c r h)
theorem X14_arg (c : Dev nD) (r : Ref sig .tc) (h : r ∈ argRefs) : X14 m c r = m ((c.tc : Thread nD τ).loc r) :=
  (X14_of m c r ((by decide : ∀ r ∈ argRefs, r ∉ hostOps5_1_W) r h)).trans (X13_arg m c r h)
theorem X15_arg (c : Dev nD) (r : Ref sig .tc) (h : r ∈ argRefs) : X15 m c r = m ((c.tc : Thread nD τ).loc r) :=
  (X15_of_ne m c r ((by decide : ∀ r ∈ argRefs, r ≠ main_v60) r h)).trans (X14_arg m c r h)
theorem X16_arg (c : Dev nD) (r : Ref sig .tc) (h : r ∈ argRefs) : X16 m c r = m ((c.tc : Thread nD τ).loc r) :=
  (X16_of m c r ((by decide : ∀ r ∈ argRefs, r ∉ hostOps6_W) r h)).trans (X15_arg m c r h)
theorem X17_arg (c : Dev nD) (r : Ref sig .tc) (h : r ∈ argRefs) : X17 m c r = m ((c.tc : Thread nD τ).loc r) :=
  (X17_of_ne m c r ((by decide : ∀ r ∈ argRefs, r ≠ main_v77) r h)).trans (X16_arg m c r h)
theorem X18_arg (c : Dev nD) (r : Ref sig .tc) (h : r ∈ argRefs) : X18 m c r = m ((c.tc : Thread nD τ).loc r) :=
  (X18_of m c r ((by decide : ∀ r ∈ argRefs, r ∉ hostOps7_W) r h)).trans (X17_arg m c r h)

theorem X2_src (c : Dev nD) : X2 m c main_v1 = X1 m c main_v1 := (X2_of_ne m c main_v1 (by decide))
theorem X3_src (c : Dev nD) : X3 m c main_v1 = X1 m c main_v1 := (X3_of m c main_v1 (by decide)).trans (X2_src m c)
theorem X4_src (c : Dev nD) : X4 m c main_v1 = X1 m c main_v1 := (X4_of m c main_v1 (by decide)).trans (X3_src m c)
theorem X5_src (c : Dev nD) : X5 m c main_v1 = X1 m c main_v1 := (X5_of_ne m c main_v1 (by decide)).trans (X4_src m c)
theorem X6_src (c : Dev nD) : X6 m c main_v1 = X1 m c main_v1 := (X6_of m c main_v1 (by decide)).trans (X5_src m c)
theorem X7_src (c : Dev nD) : X7 m c main_v1 = X1 m c main_v1 := (X7_of_ne m c main_v1 (by decide)).trans (X6_src m c)
theorem X8_src (c : Dev nD) : X8 m c main_v1 = X1 m c main_v1 := (X8_of m c main_v1 (by decide)).trans (X7_src m c)
theorem X9_src (c : Dev nD) : X9 m c main_v1 = X1 m c main_v1 := (X9_of m c main_v1 (by decide)).trans (X8_src m c)
theorem X10_src (c : Dev nD) : X10 m c main_v1 = X1 m c main_v1 := (X10_of_ne m c main_v1 (by decide)).trans (X9_src m c)
theorem X11_src (c : Dev nD) : X11 m c main_v1 = X1 m c main_v1 := (X11_of m c main_v1 (by decide)).trans (X10_src m c)
theorem X12_src (c : Dev nD) : X12 m c main_v1 = X1 m c main_v1 := (X12_of_ne m c main_v1 (by decide)).trans (X11_src m c)

theorem X2_dst (c : Dev nD) : X2 m c main_v3 = X1 m c main_v3 := (X2_of_ne m c main_v3 (by decide))
theorem X3_dst (c : Dev nD) : X3 m c main_v3 = X1 m c main_v3 := (X3_of m c main_v3 (by decide)).trans (X2_dst m c)
theorem X4_dst (c : Dev nD) : X4 m c main_v3 = X1 m c main_v3 := (X4_of m c main_v3 (by decide)).trans (X3_dst m c)
theorem X5_dst (c : Dev nD) : X5 m c main_v3 = X1 m c main_v3 := (X5_of_ne m c main_v3 (by decide)).trans (X4_dst m c)
theorem X6_dst (c : Dev nD) : X6 m c main_v3 = X1 m c main_v3 := (X6_of m c main_v3 (by decide)).trans (X5_dst m c)
theorem X7_dst (c : Dev nD) : X7 m c main_v3 = X1 m c main_v3 := (X7_of_ne m c main_v3 (by decide)).trans (X6_dst m c)
theorem X8_dst (c : Dev nD) : X8 m c main_v3 = X1 m c main_v3 := (X8_of m c main_v3 (by decide)).trans (X7_dst m c)
theorem X9_dst (c : Dev nD) : X9 m c main_v3 = X1 m c main_v3 := (X9_of m c main_v3 (by decide)).trans (X8_dst m c)
theorem X10_dst (c : Dev nD) : X10 m c main_v3 = X1 m c main_v3 := (X10_of_ne m c main_v3 (by decide)).trans (X9_dst m c)
theorem X11_dst (c : Dev nD) : X11 m c main_v3 = X1 m c main_v3 := (X11_of m c main_v3 (by decide)).trans (X10_dst m c)
theorem X12_dst (c : Dev nD) : X12 m c main_v3 = X1 m c main_v3 := (X12_of_ne m c main_v3 (by decide)).trans (X11_dst m c)
theorem X13_dst (c : Dev nD) : X13 m c main_v3 = X1 m c main_v3 := (X13_of m c main_v3 (by decide)).trans (X12_dst m c)
theorem X14_dst (c : Dev nD) : X14 m c main_v3 = X1 m c main_v3 := (X14_of m c main_v3 (by decide)).trans (X13_dst m c)
theorem X15_dst (c : Dev nD) : X15 m c main_v3 = X1 m c main_v3 := (X15_of_ne m c main_v3 (by decide)).trans (X14_dst m c)

theorem X3_h0 (c : Dev nD) : X3 m c main_v5 = X2 m c main_v5 := (X3_of m c main_v5 (by decide))
theorem X4_h0 (c : Dev nD) : X4 m c main_v5 = X2 m c main_v5 := (X4_of m c main_v5 (by decide)).trans (X3_h0 m c)
theorem X5_h0 (c : Dev nD) : X5 m c main_v5 = X2 m c main_v5 := (X5_of_ne m c main_v5 (by decide)).trans (X4_h0 m c)
theorem X6_h0 (c : Dev nD) : X6 m c main_v5 = X2 m c main_v5 := (X6_of m c main_v5 (by decide)).trans (X5_h0 m c)
theorem X7_h0 (c : Dev nD) : X7 m c main_v5 = X2 m c main_v5 := (X7_of_ne m c main_v5 (by decide)).trans (X6_h0 m c)
theorem X8_h0 (c : Dev nD) : X8 m c main_v5 = X2 m c main_v5 := (X8_of m c main_v5 (by decide)).trans (X7_h0 m c)
theorem X9_h0 (c : Dev nD) : X9 m c main_v5 = X2 m c main_v5 := (X9_of m c main_v5 (by decide)).trans (X8_h0 m c)
theorem X10_h0 (c : Dev nD) : X10 m c main_v5 = X2 m c main_v5 := (X10_of_ne m c main_v5 (by decide)).trans (X9_h0 m c)
theorem X11_h0 (c : Dev nD) : X11 m c main_v5 = X2 m c main_v5 := (X11_of m c main_v5 (by decide)).trans (X10_h0 m c)
theorem X12_h0 (c : Dev nD) : X12 m c main_v5 = X2 m c main_v5 := (X12_of_ne m c main_v5 (by decide)).trans (X11_h0 m c)
theorem X13_h0 (c : Dev nD) : X13 m c main_v5 = X2 m c main_v5 := (X13_of m c main_v5 (by decide)).trans (X12_h0 m c)
theorem X14_h0 (c : Dev nD) : X14 m c main_v5 = X2 m c main_v5 := (X14_of m c main_v5 (by decide)).trans (X13_h0 m c)
theorem X15_h0 (c : Dev nD) : X15 m c main_v5 = X2 m c main_v5 := (X15_of_ne m c main_v5 (by decide)).trans (X14_h0 m c)
theorem X16_h0 (c : Dev nD) : X16 m c main_v5 = X2 m c main_v5 := (X16_of m c main_v5 (by decide)).trans (X15_h0 m c)
theorem X17_h0 (c : Dev nD) : X17 m c main_v5 = X2 m c main_v5 := (X17_of_ne m c main_v5 (by decide)).trans (X16_h0 m c)

theorem X8_h1 (c : Dev nD) : X8 m c main_v29 = X7 m c main_v29 := (X8_of m c main_v29 (by decide))
theorem X9_h1 (c : Dev nD) : X9 m c main_v29 = X7 m c main_v29 := (X9_of m c main_v29 (by decide)).trans (X8_h1 m c)
theorem X10_h1 (c : Dev nD) : X10 m c main_v29 = X7 m c main_v29 := (X10_of_ne m c main_v29 (by decide)).trans (X9_h1 m c)
theorem X11_h1 (c : Dev nD) : X11 m c main_v29 = X7 m c main_v29 := (X11_of m c main_v29 (by decide)).trans (X10_h1 m c)
theorem X12_h1 (c : Dev nD) : X12 m c main_v29 = X7 m c main_v29 := (X12_of_ne m c main_v29 (by decide)).trans (X11_h1 m c)
theorem X13_h1 (c : Dev nD) : X13 m c main_v29 = X7 m c main_v29 := (X13_of m c main_v29 (by decide)).trans (X12_h1 m c)
theorem X14_h1 (c : Dev nD) : X14 m c main_v29 = X7 m c main_v29 := (X14_of m c main_v29 (by decide)).trans (X13_h1 m c)
theorem X15_h1 (c : Dev nD) : X15 m c main_v29 = X7 m c main_v29 := (X15_of_ne m c main_v29 (by decide)).trans (X14_h1 m c)
theorem X16_h1 (c : Dev nD) : X16 m c main_v29 = X7 m c main_v29 := (X16_of m c main_v29 (by decide)).trans (X15_h1 m c)
theorem X17_h1 (c : Dev nD) : X17 m c main_v29 = X7 m c main_v29 := (X17_of_ne m c main_v29 (by decide)).trans (X16_h1 m c)

theorem X13_h2 (c : Dev nD) : X13 m c main_v53 = X12 m c main_v53 := (X13_of m c main_v53 (by decide))
theorem X14_h2 (c : Dev nD) : X14 m c main_v53 = X12 m c main_v53 := (X14_of m c main_v53 (by decide)).trans (X13_h2 m c)
theorem X15_h2 (c : Dev nD) : X15 m c main_v53 = X12 m c main_v53 := (X15_of_ne m c main_v53 (by decide)).trans (X14_h2 m c)
theorem X16_h2 (c : Dev nD) : X16 m c main_v53 = X12 m c main_v53 := (X16_of m c main_v53 (by decide)).trans (X15_h2 m c)
theorem X17_h2 (c : Dev nD) : X17 m c main_v53 = X12 m c main_v53 := (X17_of_ne m c main_v53 (by decide)).trans (X16_h2 m c)

theorem ofBuf_toBuf {T : BufTy} (x : StableHlo.TRef sig T) (v : T.Contents (Elt F)) : x.ofBuf (x.toBuf v) = v := by
  obtain ⟨r, h, d, u⟩ := x
  subst h
  rfl

theorem ofBuf_src (p q r) (v : (⟨S800000, .i32⟩ : BufTy).Contents (Elt F)) :
    StableHlo.TRef.ofBuf (StableHlo.TRef.of main_v1 p q r : StableHlo.TRef sig ⟨S800000, .i32⟩) v = v := rfl

theorem toBuf_take0 (p q r) (v : (⟨S800000x128, .f32⟩ : BufTy).Contents (Elt F)) :
    StableHlo.TRef.toBuf (StableHlo.TRef.of main_v6 p q r : StableHlo.TRef sig ⟨S800000x128, .f32⟩) v = v := rfl
theorem ofBuf_h0 (p q r) (v : (⟨S50000x128, .f32⟩ : BufTy).Contents (Elt F)) :
    StableHlo.TRef.ofBuf (StableHlo.TRef.of main_v5 p q r : StableHlo.TRef sig ⟨S50000x128, .f32⟩) v = v := rfl

theorem toBuf_take1 (p q r) (v : (⟨S800000x128, .f32⟩ : BufTy).Contents (Elt F)) :
    StableHlo.TRef.toBuf (StableHlo.TRef.of main_v30 p q r : StableHlo.TRef sig ⟨S800000x128, .f32⟩) v = v := rfl
theorem ofBuf_h1 (p q r) (v : (⟨S50000x128, .f32⟩ : BufTy).Contents (Elt F)) :
    StableHlo.TRef.ofBuf (StableHlo.TRef.of main_v29 p q r : StableHlo.TRef sig ⟨S50000x128, .f32⟩) v = v := rfl

theorem toBuf_take2 (p q r) (v : (⟨S800000x128, .f32⟩ : BufTy).Contents (Elt F)) :
    StableHlo.TRef.toBuf (StableHlo.TRef.of main_v54 p q r : StableHlo.TRef sig ⟨S800000x128, .f32⟩) v = v := rfl
theorem ofBuf_h2 (p q r) (v : (⟨S50000x128, .f32⟩ : BufTy).Contents (Elt F)) :
    StableHlo.TRef.ofBuf (StableHlo.TRef.of main_v53 p q r : StableHlo.TRef sig ⟨S50000x128, .f32⟩) v = v := rfl

set_option maxHeartbeats 4000000 in

theorem take0_read (W : Valuation τ sig (Elt F)) : StableHlo.after hostOps1 W (Proc.devRef .tc main_v6) =
    Cert.Hand.SrcRange.take (W main_v5) (W main_v1) := by
  after_results
  rw [toBuf_take0]
  repeat rw [ofBuf_toBuf]
  rw [ofBuf_src, ofBuf_h0]
  rfl

set_option maxHeartbeats 4000000 in

theorem take1_read (W : Valuation τ sig (Elt F)) : StableHlo.after hostOps3 W (Proc.devRef .tc main_v30) =
    Cert.Hand.SrcRange.take (W main_v29) (W main_v1) := by
  after_results
  rw [toBuf_take1]
  repeat rw [ofBuf_toBuf]
  rw [ofBuf_src, ofBuf_h1]
  rfl

set_option maxHeartbeats 4000000 in

theorem take2_read (W : Valuation τ sig (Elt F)) : StableHlo.after hostOps5 W (Proc.devRef .tc main_v54) =
    Cert.Hand.SrcRange.take (W main_v53) (W main_v1) := by
  after_results
  rw [toBuf_take2]
  repeat rw [ofBuf_toBuf]
  rw [ofBuf_src, ofBuf_h2]
  rfl

theorem src_eq (c : Dev nD) : X1 m c main_v1 =
    shapeCast S800000 (extractStridedSlice S1x800000 ![0, 0] (m ((c.tc : Thread nD τ).loc main_arg1)) slices_S2x800000_S1x800000_0_0) shapeCasts_S1x800000_S800000 := by
  unfold X1; show StableHlo.after hostOps0 _ (Proc.devRef .tc main_v1) = _; after_results; rfl
theorem dst_eq (c : Dev nD) : X1 m c main_v3 =
    shapeCast S800000 (extractStridedSlice S1x800000 ![1, 0] (m ((c.tc : Thread nD τ).loc main_arg1)) slices_S2x800000_S1x800000_1_0) shapeCasts_S1x800000_S800000 := by
  unfold X1; show StableHlo.after hostOps0 _ (Proc.devRef .tc main_v3) = _; after_results; rfl

theorem in0_0 (c : Dev nD) : X1 m c main_arg0 = (m ((c.tc : Thread nD τ).loc main_arg0)) := X1_arg m c main_arg0 (by decide)
theorem in0_1 (c : Dev nD) : X1 m c main_arg3 = (m ((c.tc : Thread nD τ).loc main_arg3)) := X1_arg m c main_arg3 (by decide)
theorem in0_2 (c : Dev nD) : X1 m c main_v4 = shapeCast S1x128 (m ((c.tc : Thread nD τ).loc main_arg4)) shapeCasts_S128_S1x128 := by
  unfold X1; show StableHlo.after hostOps0 _ (Proc.devRef .tc main_v4) = _; after_results; rfl

theorem in7_0 (c : Dev nD) : X18 m c main_v78 =
    concatenate S50000x512 1 [⟨S50000x128, X2 m c main_v5⟩, ⟨S50000x128, X7 m c main_v29⟩, ⟨S50000x128, X12 m c main_v53⟩, ⟨S50000x128, X17 m c main_v77⟩] concatenates_S50000x128_S50000x128_S50000x128_S50000x128_S50000x512_d1 := by
  unfold X18; show StableHlo.after hostOps7 _ (Proc.devRef .tc main_v78) = _; after_results
  rw [← X17_h0 m c, ← X17_h1 m c, ← X17_h2 m c]
  rfl
theorem in7_1 (c : Dev nD) : X18 m c main_arg12 = (m ((c.tc : Thread nD τ).loc main_arg12)) := X18_arg m c main_arg12 (by decide)
theorem in7_2 (c : Dev nD) : X18 m c main_v79 = shapeCast S1x128 (m ((c.tc : Thread nD τ).loc main_arg13)) shapeCasts_S128_S1x128 := by
  unfold X18; show StableHlo.after hostOps7 _ (Proc.devRef .tc main_v79) = _; after_results
  rw [X17_arg m c main_arg13 (by decide)]
  rfl

theorem in1_0 (c : Dev nD) : X4 m c main_v6 =
    Cert.Hand.SrcRange.take (X2 m c main_v5) (X1 m c main_v1) := by
  rw [X4_of m c main_v6 (by decide)]
  unfold X3
  rw [take0_read (X2 m c), X2_src m c]
theorem in1_1 (c : Dev nD) : X4 m c main_arg2 = (m ((c.tc : Thread nD τ).loc main_arg2)) := X4_arg m c main_arg2 (by decide)
theorem in1_2 (c : Dev nD) : X4 m c main_v8 =
    shapeCast S16x128 (extractStridedSlice S1x16x128 ![0, 0, 0] (m ((c.tc : Thread nD τ).loc main_arg5)) slices_S3x16x128_S1x16x128_0_0_0) shapeCasts_S1x16x128_S16x128 := by
  unfold X4; show StableHlo.after hostOps1_1 _ (Proc.devRef .tc main_v8) = _; after_results
  rw [X3_arg m c main_arg5 (by decide)]
  rfl
theorem in1_3 (c : Dev nD) : X4 m c main_v11 =
    shapeCast S1x128 (shapeCast S128 (extractStridedSlice S1x128 ![0, 0] (m ((c.tc : Thread nD τ).loc main_arg6)) slices_S3x128_S1x128_0_0) shapeCasts_S1x128_S128) shapeCasts_S128_S1x128 := by
  unfold X4; show StableHlo.after hostOps1_1 _ (Proc.devRef .tc main_v11) = _; after_results
  rw [X3_arg m c main_arg6 (by decide)]
  rfl

theorem in2_0 (c : Dev nD) : X6 m c main_v5 = X2 m c main_v5 := X6_h0 m c

theorem in2_1 (c : Dev nD) : X6 m c main_v15 =
    Host.scatterAdd scatter_S50000x128_S800000x1_S800000x128_1_0_0_1 (broadcastInDim S50000x128 ![] bcast_S_S50000x128 (constant S_ .f32 0x00000000#32)) (broadcastInDim S800000x1 ![0] bcast_S800000_S800000x1_0 (X1 m c main_v3)) (X5 m c main_v12) := by
  unfold X6; show StableHlo.after hostOps2 _ (Proc.devRef .tc main_v15) = _; after_results
  rw [X5_dst m c]
theorem in2_2 (c : Dev nD) : X6 m c main_v28 =
    shapeCast S1x1 (shapeCast S_ (extractStridedSlice S1 ![0] (m ((c.tc : Thread nD τ).loc main_arg11)) slices_S3_S1_0) shapeCasts_S1_S_) shapeCasts_S_S1x1 := by
  unfold X6; show StableHlo.after hostOps2 _ (Proc.devRef .tc main_v28) = _; after_results
  rw [X5_arg m c main_arg11 (by decide)]
  rfl
theorem in2_3 (c : Dev nD) : X6 m c main_v19 =
    shapeCast S128x256 (extractStridedSlice S1x128x256 ![0, 0, 0] (m ((c.tc : Thread nD τ).loc main_arg7)) slices_S3x128x256_S1x128x256_0_0_0) shapeCasts_S1x128x256_S128x256 := by
  unfold X6; show StableHlo.after hostOps2 _ (Proc.devRef .tc main_v19) = _; after_results
  rw [X5_arg m c main_arg7 (by decide)]
  rfl
theorem in2_4 (c : Dev nD) : X6 m c main_v26 =
    shapeCast S1x256 (shapeCast S256 (extractStridedSlice S1x256 ![0, 0] (m ((c.tc : Thread nD τ).loc main_arg8)) slices_S3x256_S1x256_0_0) shapeCasts_S1x256_S256) shapeCasts_S256_S1x256 := by
  unfold X6; show StableHlo.after hostOps2 _ (Proc.devRef .tc main_v26) = _; after_results
  rw [X5_arg m c main_arg8 (by decide)]
  rfl
theorem in2_5 (c : Dev nD) : X6 m c main_v23 =
    shapeCast S256x128 (extractStridedSlice S1x256x128 ![0, 0, 0] (m ((c.tc : Thread nD τ).loc main_arg9)) slices_S3x256x128_S1x256x128_0_0_0) shapeCasts_S1x256x128_S256x128 := by
  unfold X6; show StableHlo.after hostOps2 _ (Proc.devRef .tc main_v23) = _; after_results
  rw [X5_arg m c main_arg9 (by decide)]
  rfl
theorem in2_6 (c : Dev nD) : X6 m c main_v27 =
    shapeCast S1x128 (shapeCast S128 (extractStridedSlice S1x128 ![0, 0] (m ((c.tc : Thread nD τ).loc main_arg10)) slices_S3x128_S1x128_0_0) shapeCasts_S1x128_S128) shapeCasts_S128_S1x128 := by
  unfold X6; show StableHlo.after hostOps2 _ (Proc.devRef .tc main_v27) = _; after_results
  rw [X5_arg m c main_arg10 (by decide)]
  rfl

theorem in3_0 (c : Dev nD) : X9 m c main_v30 =
    Cert.Hand.SrcRange.take (X7 m c main_v29) (X1 m c main_v1) := by
  rw [X9_of m c main_v30 (by decide)]
  unfold X8
  rw [take1_read (X7 m c), X7_src m c]
theorem in3_1 (c : Dev nD) : X9 m c main_arg2 = (m ((c.tc : Thread nD τ).loc main_arg2)) := X9_arg m c main_arg2 (by decide)
theorem in3_2 (c : Dev nD) : X9 m c main_v32 =
    shapeCast S16x128 (extractStridedSlice S1x16x128 ![1, 0, 0] (m ((c.tc : Thread nD τ).loc main_arg5)) slices_S3x16x128_S1x16x128_1_0_0) shapeCasts_S1x16x128_S16x128 := by
  unfold X9; show StableHlo.after hostOps3_1 _ (Proc.devRef .tc main_v32) = _; after_results
  rw [X8_arg m c main_arg5 (by decide)]
  rfl
theorem in3_3 (c : Dev nD) : X9 m c main_v35 =
    shapeCast S1x128 (shapeCast S128 (extractStridedSlice S1x128 ![1, 0] (m ((c.tc : Thread nD τ).loc main_arg6)) slices_S3x128_S1x128_1_0) shapeCasts_S1x128_S128) shapeCasts_S128_S1x128 := by
  unfold X9; show StableHlo.after hostOps3_1 _ (Proc.devRef .tc main_v35) = _; after_results
  rw [X8_arg m c main_arg6 (by decide)]
  rfl

theorem in4_0 (c : Dev nD) : X11 m c main_v29 = X7 m c main_v29 := X11_h1 m c

theorem in4_1 (c : Dev nD) : X11 m c main_v39 =
    Host.scatterAdd scatter_S50000x128_S800000x1_S800000x128_1_0_0_1 (broadcastInDim S50000x128 ![] bcast_S_S50000x128 (constant S_ .f32 0x00000000#32)) (broadcastInDim S800000x1 ![0] bcast_S800000_S800000x1_0 (X1 m c main_v3)) (X10 m c main_v36) := by
  unfold X11; show StableHlo.after hostOps4 _ (Proc.devRef .tc main_v39) = _; after_results
  rw [X10_dst m c]
theorem in4_2 (c : Dev nD) : X11 m c main_v52 =
    shapeCast S1x1 (shapeCast S_ (extractStridedSlice S1 ![1] (m ((c.tc : Thread nD τ).loc main_arg11)) slices_S3_S1_1) shapeCasts_S1_S_) shapeCasts_S_S1x1 := by
  unfold X11; show StableHlo.after hostOps4 _ (Proc.devRef .tc main_v52) = _; after_results
  rw [X10_arg m c main_arg11 (by decide)]
  rfl
theorem in4_3 (c : Dev nD) : X11 m c main_v43 =
    shapeCast S128x256 (extractStridedSlice S1x128x256 ![1, 0, 0] (m ((c.tc : Thread nD τ).loc main_arg7)) slices_S3x128x256_S1x128x256_1_0_0) shapeCasts_S1x128x256_S128x256 := by
  unfold X11; show StableHlo.after hostOps4 _ (Proc.devRef .tc main_v43) = _; after_results
  rw [X10_arg m c main_arg7 (by decide)]
  rfl
theorem in4_4 (c : Dev nD) : X11 m c main_v50 =
    shapeCast S1x256 (shapeCast S256 (extractStridedSlice S1x256 ![1, 0] (m ((c.tc : Thread nD τ).loc main_arg8)) slices_S3x256_S1x256_1_0) shapeCasts_S1x256_S256) shapeCasts_S256_S1x256 := by
  unfold X11; show StableHlo.after hostOps4 _ (Proc.devRef .tc main_v50) = _; after_results
  rw [X10_arg m c main_arg8 (by decide)]
  rfl
theorem in4_5 (c : Dev nD) : X11 m c main_v47 =
    shapeCast S256x128 (extractStridedSlice S1x256x128 ![1, 0, 0] (m ((c.tc : Thread nD τ).loc main_arg9)) slices_S3x256x128_S1x256x128_1_0_0) shapeCasts_S1x256x128_S256x128 := by
  unfold X11; show StableHlo.after hostOps4 _ (Proc.devRef .tc main_v47) = _; after_results
  rw [X10_arg m c main_arg9 (by decide)]
  rfl
theorem in4_6 (c : Dev nD) : X11 m c main_v51 =
    shapeCast S1x128 (shapeCast S128 (extractStridedSlice S1x128 ![1, 0] (m ((c.tc : Thread nD τ).loc main_arg10)) slices_S3x128_S1x128_1_0) shapeCasts_S1x128_S128) shapeCasts_S128_S1x128 := by
  unfold X11; show StableHlo.after hostOps4 _ (Proc.devRef .tc main_v51) = _; after_results
  rw [X10_arg m c main_arg10 (by decide)]
  rfl

theorem in5_0 (c : Dev nD) : X14 m c main_v54 =
    Cert.Hand.SrcRange.take (X12 m c main_v53) (X1 m c main_v1) := by
  rw [X14_of m c main_v54 (by decide)]
  unfold X13
  rw [take2_read (X12 m c), X12_src m c]
theorem in5_1 (c : Dev nD) : X14 m c main_arg2 = (m ((c.tc : Thread nD τ).loc main_arg2)) := X14_arg m c main_arg2 (by decide)
theorem in5_2 (c : Dev nD) : X14 m c main_v56 =
    shapeCast S16x128 (extractStridedSlice S1x16x128 ![2, 0, 0] (m ((c.tc : Thread nD τ).loc main_arg5)) slices_S3x16x128_S1x16x128_2_0_0) shapeCasts_S1x16x128_S16x128 := by
  unfold X14; show StableHlo.after hostOps5_1 _ (Proc.devRef .tc main_v56) = _; after_results
  rw [X13_arg m c main_arg5 (by decide)]
  rfl
theorem in5_3 (c : Dev nD) : X14 m c main_v59 =
    shapeCast S1x128 (shapeCast S128 (extractStridedSlice S1x128 ![2, 0] (m ((c.tc : Thread nD τ).loc main_arg6)) slices_S3x128_S1x128_2_0) shapeCasts_S1x128_S128) shapeCasts_S128_S1x128 := by
  unfold X14; show StableHlo.after hostOps5_1 _ (Proc.devRef .tc main_v59) = _; after_results
  rw [X13_arg m c main_arg6 (by decide)]
  rfl

theorem in6_0 (c : Dev nD) : X16 m c main_v53 = X12 m c main_v53 := X16_h2 m c

theorem in6_1 (c : Dev nD) : X16 m c main_v63 =
    Host.scatterAdd scatter_S50000x128_S800000x1_S800000x128_1_0_0_1 (broadcastInDim S50000x128 ![] bcast_S_S50000x128 (constant S_ .f32 0x00000000#32)) (broadcastInDim S800000x1 ![0] bcast_S800000_S800000x1_0 (X1 m c main_v3)) (X15 m c main_v60) := by
  unfold X16; show StableHlo.after hostOps6 _ (Proc.devRef .tc main_v63) = _; after_results
  rw [X15_dst m c]
theorem in6_2 (c : Dev nD) : X16 m c main_v76 =
    shapeCast S1x1 (shapeCast S_ (extractStridedSlice S1 ![2] (m ((c.tc : Thread nD τ).loc main_arg11)) slices_S3_S1_2) shapeCasts_S1_S_) shapeCasts_S_S1x1 := by
  unfold X16; show StableHlo.after hostOps6 _ (Proc.devRef .tc main_v76) = _; after_results
  rw [X15_arg m c main_arg11 (by decide)]
  rfl
theorem in6_3 (c : Dev nD) : X16 m c main_v67 =
    shapeCast S128x256 (extractStridedSlice S1x128x256 ![2, 0, 0] (m ((c.tc : Thread nD τ).loc main_arg7)) slices_S3x128x256_S1x128x256_2_0_0) shapeCasts_S1x128x256_S128x256 := by
  unfold X16; show StableHlo.after hostOps6 _ (Proc.devRef .tc main_v67) = _; after_results
  rw [X15_arg m c main_arg7 (by decide)]
  rfl
theorem in6_4 (c : Dev nD) : X16 m c main_v74 =
    shapeCast S1x256 (shapeCast S256 (extractStridedSlice S1x256 ![2, 0] (m ((c.tc : Thread nD τ).loc main_arg8)) slices_S3x256_S1x256_2_0) shapeCasts_S1x256_S256) shapeCasts_S256_S1x256 := by
  unfold X16; show StableHlo.after hostOps6 _ (Proc.devRef .tc main_v74) = _; after_results
  rw [X15_arg m c main_arg8 (by decide)]
  rfl
theorem in6_5 (c : Dev nD) : X16 m c main_v71 =
    shapeCast S256x128 (extractStridedSlice S1x256x128 ![2, 0, 0] (m ((c.tc : Thread nD τ).loc main_arg9)) slices_S3x256x128_S1x256x128_2_0_0) shapeCasts_S1x256x128_S256x128 := by
  unfold X16; show StableHlo.after hostOps6 _ (Proc.devRef .tc main_v71) = _; after_results
  rw [X15_arg m c main_arg9 (by decide)]
  rfl
theorem in6_6 (c : Dev nD) : X16 m c main_v75 =
    shapeCast S1x128 (shapeCast S128 (extractStridedSlice S1x128 ![2, 0] (m ((c.tc : Thread nD τ).loc main_arg10)) slices_S3x128_S1x128_2_0) shapeCasts_S1x128_S128) shapeCasts_S128_S1x128 := by
  unfold X16; show StableHlo.after hostOps6 _ (Proc.devRef .tc main_v75) = _; after_results
  rw [X15_arg m c main_arg10 (by decide)]
  rfl

end Cert.KernelIdeal.Hand

end
-- ==== Proof.Layout.lean ====
import Idealize.ShloMosaic.Lib.ValueIdx
import Idealize.ShloMosaic.Lib.ValueLayout
import Idealize.ShloMosaic.Lib.Pipeline.Value

namespace Cert.Hand.Layout

open Idealize.ShloMosaic Idealize.ShloMosaic.ValueIdx

variable {α : Type}

theorem row_cell (n : ℕ) (b : (⟨1, ![n]⟩ : Shape).Idx → α)
    (h2 : (⟨1, ![n]⟩ : Shape).BroadcastsInDim ⟨2, ![1, n]⟩ (![1] : Fin 1 → Fin 2)) (u : Fin 1) (j : Fin n) :
    broadcastInDim (⟨2, ![1, n]⟩ : Shape) (![1] : Fin 1 → Fin 2) h2 b (ix2 u j) = b (ix1 j) := by
  refine broadcastInDim_apply (![1] : Fin 1 → Fin 2) h2 b (ix2 u j) (ix1 j) fun a => ?_
  match a with
  | ⟨0, _⟩ =>
    show j.val = if n = 1 then 0 else j.val
    split
    · have := j.isLt; omega
    · rfl

theorem row_cell_cast (n : ℕ) (b : (⟨1, ![n]⟩ : Shape).Idx → α)
    (h1 : (⟨1, ![n]⟩ : Shape).ShapeCasts ⟨2, ![1, n]⟩) (u : Fin 1) (j : Fin n) :
    shapeCast (⟨2, ![1, n]⟩ : Shape) b h1 (ix2 u j) = b (ix1 j) :=
  shapeCast_a_1a_apply b h1 u j

theorem row_eq (n : ℕ) (b : (⟨1, ![n]⟩ : Shape).Idx → α)
    (h1 : (⟨1, ![n]⟩ : Shape).ShapeCasts ⟨2, ![1, n]⟩)
    (h2 : (⟨1, ![n]⟩ : Shape).BroadcastsInDim ⟨2, ![1, n]⟩ (![1] : Fin 1 → Fin 2)) :
    shapeCast (⟨2, ![1, n]⟩ : Shape) b h1 = broadcastInDim (⟨2, ![1, n]⟩ : Shape) (![1] : Fin 1 → Fin 2) h2 b := by
  funext y
  obtain ⟨u, j, rfl⟩ : ∃ (u : Fin 1) (j : Fin n), y = ix2 u j := ⟨y 0, y 1, eq_ix2 y⟩
  exact (row_cell_cast n b h1 u j).trans (row_cell n b h2 u j).symm

theorem scalar_cell (e : (⟨0, ![]⟩ : Shape).Idx → α) (h : (⟨0, ![]⟩ : Shape).ShapeCasts ⟨2, ![1, 1]⟩) (u v : Fin 1) :
    shapeCast (⟨2, ![1, 1]⟩ : Shape) e h (ix2 u v) = e ix0 :=
  shapeCast_apply e h _ _ (by
    have hu : u.val = 0 := by omega
    have hv : v.val = 0 := by omega
    rw [Shape.rowMajor_val_two]
    show (Shape.rowMajorPi _ _).val = u.val * 1 + v.val
    rw [Shape.rowMajorPi_zero, hu, hv])

end Cert.Hand.Layout
-- ==== Proof.KernelIdeal.Bridge.lean ====
import proofs.«404173_j463856468344_1_alg».proof.Proof.KernelIdeal.ChainTable
import proofs.«404173_j463856468344_1_alg».proof.Proof.KernelIdeal.Match
import proofs.«404173_j463856468344_1_alg».proof.Proof.KernelIdeal.Reads
import proofs.«404173_j463856468344_1_alg».proof.Proof.SrcRange
import proofs.«404173_j463856468344_1_alg».proof.Proof.Layout
import proofs.«404173_j463856468344_1_alg».proof.Proof.RefStages
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (c : Dev nD)

abbrev A0 : FVec Ideal S50000x128 .f32 := m ((c.tc : Thread nD τ).loc main_arg0)
abbrev A1 : IVec S2x800000 32 := m ((c.tc : Thread nD τ).loc main_arg1)
abbrev A2 : FVec Ideal S800000x16 .f32 := m ((c.tc : Thread nD τ).loc main_arg2)
abbrev A3 : FVec Ideal S128x128 .f32 := m ((c.tc : Thread nD τ).loc main_arg3)
abbrev A4 : FVec Ideal S128 .f32 := m ((c.tc : Thread nD τ).loc main_arg4)
abbrev A5 : FVec Ideal S3x16x128 .f32 := m ((c.tc : Thread nD τ).loc main_arg5)
abbrev A6 : FVec Ideal S3x128 .f32 := m ((c.tc : Thread nD τ).loc main_arg6)
abbrev A7 : FVec Ideal S3x128x256 .f32 := m ((c.tc : Thread nD τ).loc main_arg7)
abbrev A8 : FVec Ideal S3x256 .f32 := m ((c.tc : Thread nD τ).loc main_arg8)
abbrev A9 : FVec Ideal S3x256x128 .f32 := m ((c.tc : Thread nD τ).loc main_arg9)
abbrev A10 : FVec Ideal S3x128 .f32 := m ((c.tc : Thread nD τ).loc main_arg10)
abbrev A11 : FVec Ideal S3 .f32 := m ((c.tc : Thread nD τ).loc main_arg11)
abbrev A12 : FVec Ideal S512x128 .f32 := m ((c.tc : Thread nD τ).loc main_arg12)
abbrev A13 : FVec Ideal S128 .f32 := m ((c.tc : Thread nD τ).loc main_arg13)

-- a function of the fourteen arguments, at the arguments' arrays
abbrev args {α : Type} (f : FVec Ideal S50000x128 .f32 → IVec S2x800000 32 → FVec Ideal S800000x16 .f32 → FVec Ideal S128x128 .f32 → FVec Ideal S128 .f32 → FVec Ideal S3x16x128 .f32 → FVec Ideal S3x128 .f32 → FVec Ideal S3x128x256 .f32 → FVec Ideal S3x256 .f32 → FVec Ideal S3x256x128 .f32 → FVec Ideal S3x128 .f32 → FVec Ideal S3 .f32 → FVec Ideal S512x128 .f32 → FVec Ideal S128 .f32 → α) : α :=
  f (A0 m c) (A1 m c) (A2 m c) (A3 m c) (A4 m c) (A5 m c) (A6 m c) (A7 m c) (A8 m c) (A9 m c) (A10 m c) (A11 m c) (A12 m c) (A13 m c)

theorem row128 (b : FVec Ideal S128 .f32) : shapeCast S1x128 b shapeCasts_S128_S1x128 = Cert.ReferenceIdeal.Stage.rowBias128 b :=
  Cert.Hand.Layout.row_eq 128 b _ _

theorem row256 (b : FVec Ideal S256 .f32) : shapeCast S1x256 b shapeCasts_S256_S1x256 = Cert.ReferenceIdeal.Stage.rowBias256 b :=
  Cert.Hand.Layout.row_eq 256 b _ _

-- a scalar recast as a 1 x 1 array has the scalar as its one entry
theorem eps_cell (x : Vec Ideal S1x1 .f32) (e : FVec Ideal S_ .f32) (h : x = shapeCast S1x1 e shapeCasts_S_S1x1) : x (ix2 0 0) = e ix0 :=
  h ▸ Cert.Hand.Layout.scalar_cell e shapeCasts_S_S1x1 0 0

theorem h0_eq : (X2 m c main_v5 : FVec Ideal S50000x128 .f32) = args m c (Cert.ReferenceIdeal.Stage.netH0 (F := Ideal)) := by
  rw [X2_out, match0]
  show Cert.ReferenceIdeal.Stage.enc (F := Ideal) (X1 m c main_arg0) (X1 m c main_arg3) (X1 m c main_v4) = _
  rw [in0_0, in0_1, in0_2, row128]
  rfl

variable (hs : ∀ e, (-50000 : Int) ≤ (Cert.Hand.SrcRange.ksrc (A1 m c) e).toInt ∧ (Cert.Hand.SrcRange.ksrc (A1 m c) e).toInt < 50000)
include hs

theorem hs_chain : ∀ e, (-50000 : Int) ≤ ((X1 m c main_v1 : IVec S800000 32) e).toInt ∧ ((X1 m c main_v1 : IVec S800000 32) e).toInt < 50000 := by
  rw [src_eq]; exact hs

theorem h1_eq : (X7 m c main_v29 : FVec Ideal S50000x128 .f32) = args m c (Cert.ReferenceIdeal.Stage.netH1 (F := Ideal)) := by
  rw [X7_out, match2 (atTc (X6 m)) c (Cert.ReferenceIdeal.Stage.epsOf0 (A11 m c)) (eps_cell _ _ (in2_2 m c))]
  dsimp only [Val2.harr2, Val2.garr2, Val2.w1arr2, Val2.b1arr2, Val2.w2arr2, Val2.b2arr2, atTc]
  rw [in2_0, in2_1, dst_eq, X5_out, match1]
  dsimp only [Val1.harr1, Val1.aarr1, Val1.warr1, Val1.barr1, atTc]
  rw [in1_0, Cert.Hand.SrcRange.take_eq_gather (F := Ideal) (X2 m c main_v5) (X1 m c main_v1) (hs_chain m c hs), h0_eq, src_eq, in1_1, in1_2, in1_3,
    in2_3, in2_4, in2_5, in2_6, row256, row128, row128]
  rfl

theorem h2_eq : (X12 m c main_v53 : FVec Ideal S50000x128 .f32) = args m c (Cert.ReferenceIdeal.Stage.netH2 (F := Ideal)) := by
  rw [X12_out, match4 (atTc (X11 m)) c (Cert.ReferenceIdeal.Stage.epsOf1 (A11 m c)) (eps_cell _ _ (in4_2 m c))]
  dsimp only [Val4.harr4, Val4.garr4, Val4.w1arr4, Val4.b1arr4, Val4.w2arr4, Val4.b2arr4, atTc]
  rw [in4_0, in4_1, dst_eq, X10_out, match3]
  dsimp only [Val3.harr3, Val3.aarr3, Val3.warr3, Val3.barr3, atTc]
  rw [in3_0, Cert.Hand.SrcRange.take_eq_gather (F := Ideal) (X7 m c main_v29) (X1 m c main_v1) (hs_chain m c hs), h1_eq m c hs, src_eq, in3_1, in3_2, in3_3,
    in4_3, in4_4, in4_5, in4_6, row256, row128, row128]
  rfl

theorem h3_eq : (X17 m c main_v77 : FVec Ideal S50000x128 .f32) = args m c (Cert.ReferenceIdeal.Stage.netH3 (F := Ideal)) := by
  rw [X17_out, match6 (atTc (X16 m)) c (Cert.ReferenceIdeal.Stage.epsOf2 (A11 m c)) (eps_cell _ _ (in6_2 m c))]
  dsimp only [Val6.harr6, Val6.garr6, Val6.w1arr6, Val6.b1arr6, Val6.w2arr6, Val6.b2arr6, atTc]
  rw [in6_0, in6_1, dst_eq, X15_out, match5]
  dsimp only [Val5.harr5, Val5.aarr5, Val5.warr5, Val5.barr5, atTc]
  rw [in5_0, Cert.Hand.SrcRange.take_eq_gather (F := Ideal) (X12 m c main_v53) (X1 m c main_v1) (hs_chain m c hs), h2_eq m c hs, src_eq, in5_1, in5_2, in5_3,
    in6_3, in6_4, in6_5, in6_6, row256, row128, row128]
  rfl

theorem out_eq : (X19 m c main_v80 : FVec Ideal S50000x128 .f32)
    = Cert.ReferenceIdeal.Stage.net (A0 m c) (A1 m c) (A2 m c) (A3 m c) (A4 m c) (A5 m c) (A6 m c) (A7 m c) (A8 m c) (A9 m c) (A10 m c) (A11 m c) (A12 m c) (A13 m c) := by
  rw [X19_out, match7]
  dsimp only [Val7.xarr7, Val7.warr7, Val7.barr7, atTc]
  rw [in7_0, h0_eq, h1_eq m c hs, h2_eq m c hs, h3_eq m c hs, in7_1, in7_2, row128]
  rfl

end Cert.KernelIdeal.Hand

end
-- ==== Proof.lean ====
import proofs.«404173_j463856468344_1_alg».proof.Defs
import proofs.«404173_j463856468344_1_alg».proof.Proof.Gen.Kernel
import proofs.«404173_j463856468344_1_alg».proof.Proof.Gen.KernelIdeal
import proofs.«404173_j463856468344_1_alg».proof.Proof.Gen.ReferenceIdeal
import proofs.«404173_j463856468344_1_alg».proof.Proof.Gen.ReferenceIdeal.Run
import proofs.«404173_j463856468344_1_alg».proof.Proof.Gen.Pre_finite_inputs
import proofs.«404173_j463856468344_1_alg».proof.Proof.Kernel.Frame
import proofs.«404173_j463856468344_1_alg».proof.Proof.KernelIdeal.Run
import proofs.«404173_j463856468344_1_alg».proof.Proof.KernelIdeal.Bridge
import proofs.«404173_j463856468344_1_alg».proof.Proof.RefStages
import proofs.«404173_j463856468344_1_alg».proof.Proof.SrcRange
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' hpre hagree
  have hs : ∀ (c : Dev Cert.KernelIdeal.nD) e,
      (-50000 : Int) ≤ (Cert.Hand.SrcRange.ksrc (m ((c.tc : Thread Cert.KernelIdeal.nD Cert.KernelIdeal.τ).loc Cert.KernelIdeal.main_arg1)) e).toInt
      ∧ (Cert.Hand.SrcRange.ksrc (m ((c.tc : Thread Cert.KernelIdeal.nD Cert.KernelIdeal.τ).loc Cert.KernelIdeal.main_arg1)) e).toInt < 50000 :=
    fun c e => Cert.Hand.SrcRange.ksrc_range (F := Ideal) _ _ _ _ _ _ _ _ _ _ _ _ _ _ (hpre c) e
  refine ⟨fun c => Cert.KernelIdeal.Hand.X19 (F := Ideal) m c Cert.KernelIdeal.main_v80, Cert.KernelIdeal.Hand.run_result (F := Ideal) m ρ, ?_⟩
  refine (θ_run Cert.ReferenceIdeal.defs _ _).mono (fun r h c => ⟨(h c).1.trans ?_, (h c).2⟩)
    (Cert.ReferenceIdeal.Value.run (F := Ideal) m' ρ')
  obtain ⟨e0, e1, e2, e3, e4, e5, e6, e7, e8, e9, e10, e11, e12, e13⟩ := hagree c
  rw [Cert.ReferenceIdeal.Stage.res_eq, e0, e1, e2, e3, e4, e5, e6, e7, e8, e9, e10, e11, e12, e13]
  exact (Cert.KernelIdeal.Hand.out_eq m c (hs c)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
